-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_arg8 : FVec F S256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S256 .f32) (main_arg5 : FVec F S256 .f32) (main_arg6 : FVec F S256x256 .f32) (main_arg7 : FVec F S256 .f32) (main_arg8 : FVec F S256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x256 .f32) (main_arg1 : FVec F S10000x10000 .f32) (main_arg2 : FVec F S256x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S2x256 : Shape := ⟨2, ![2, 256]⟩
abbrev S400x10000 : Shape := ⟨2, ![400, 10000]⟩
abbrev S400x256 : Shape := ⟨2, ![400, 256]⟩
abbrev S2000x256 : Shape := ⟨2, ![2000, 256]⟩

abbrev nBuf : Space → Nat
  | .hbm => 19
  | .vmem => 22
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S10000x256, .bf16⟩
  | .hbm, ⟨17, _⟩ => ⟨S2x256, .f32⟩
  | .hbm, ⟨18, _⟩ => ⟨S10000x256, .f32⟩
  | .local _ .vmem, ⟨0, _⟩ => ⟨S400x10000, .f32⟩
  | .local _ .vmem, ⟨1, _⟩ => ⟨S400x10000, .f32⟩
  | .local _ .vmem, ⟨2, _⟩ => ⟨S10000x256, .f32⟩
  | .local _ .vmem, ⟨3, _⟩ => ⟨S256x256, .f32⟩
  | .local _ .vmem, ⟨4, _⟩ => ⟨S256x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S400x256, .bf16⟩
  | .local _ .vmem, ⟨12, _⟩ => ⟨S400x256, .bf16⟩
  | .local _ .vmem, ⟨13, _⟩ => ⟨S2x256, .f32⟩
  | .local _ .vmem, ⟨14, _⟩ => ⟨S10000x256, .bf16⟩
  | .local _ .vmem, ⟨15, _⟩ => ⟨S10000x256, .bf16⟩
  | .local _ .vmem, ⟨16, _⟩ => ⟨S2x256, .f32⟩
  | .local _ .vmem, ⟨17, _⟩ => ⟨S2000x256, .bf16⟩
  | .local _ .vmem, ⟨18, _⟩ => ⟨S2000x256, .bf16⟩
  | .local _ .vmem, ⟨19, _⟩ => ⟨S2x256, .f32⟩
  | .local _ .vmem, ⟨20, _⟩ => ⟨S2000x256, .f32⟩
  | .local _ .vmem, ⟨21, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18

abbrev nD : Nat := 1
abbrev τ : Topo := Topo.v7x

variable {F : FTy → Type} [FloatOps F]

abbrev grid0 : Pipeline.Grid := ⟨2, ![2, 25], ![false, false]⟩

def k0_cond3 (i : grid0.Coords) : BitVec 1 :=
  let arg0 : BitVec 32 := BitVec.ofNat 32 (i 0).val
  let c0_i32_10 : BitVec 32 := 0#32
  let v19 : BitVec 1 := Scalar.cmpi .eq arg0 c0_i32_10
  let v20 : BitVec 32 := Scalar.extui v19
  let c0_i32_11 : BitVec 32 := 0#32
  let v21 : BitVec 1 := Scalar.cmpi .ne v20 c0_i32_11
  v21

def k0_off1 (i : grid0.Coords) : Fin 2 → Nat :=
  let arg1 : BitVec 32 := BitVec.ofNat 32 (i 1).val
  let c400_i32 : BitVec 32 := 400#32
  let v37 : BitVec 32 := Scalar.muli arg1 c400_i32
  let v38 : Index := Scalar.indexCast v37
  let c0_21 : Index := 0#32
  ![v38.toNat, 0]
def k0_cond4 (i : grid0.Coords) : BitVec 1 :=
  let arg0 : BitVec 32 := BitVec.ofNat 32 (i 0).val
  let c1_i32_12 : BitVec 32 := 1#32
  let v22 : BitVec 1 := Scalar.cmpi .eq arg0 c1_i32_12
  let v23 : BitVec 32 := Scalar.extui v22
  let c0_i32_13 : BitVec 32 := 0#32
  let v24 : BitVec 1 := Scalar.cmpi .ne v23 c0_i32_13
  v24

def k0_cond7 (i : grid0.Coords) : BitVec 1 :=
  let arg0 : BitVec 32 := BitVec.ofNat 32 (i 0).val
  let c1_i32_18 : BitVec 32 := 1#32
  let v31 : BitVec 1 := Scalar.cmpi .eq arg0 c1_i32_18
  let arg1 : BitVec 32 := BitVec.ofNat 32 (i 1).val
  let c24_i32 : BitVec 32 := 24#32
  let v32 : BitVec 1 := Scalar.cmpi .eq arg1 c24_i32
  let v33 : BitVec 1 := Scalar.andi v31 v32
  let v34 : BitVec 32 := Scalar.extui v33
  let c0_i32_20 : BitVec 32 := 0#32
  let v35 : BitVec 1 := Scalar.cmpi .ne v34 c0_i32_20
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S400x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S2x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S256_S1x256 : S256.ShapeCasts S1x256
  inb_S10000x256_S2000x256_0_0 : ∀ a, (![0, 0] : Fin 2 → Nat) a + S2000x256.size a ≤ S10000x256.size a
  h_S2000x256 : 0 < S2000x256.numel
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  shapeCasts_S2000x256_S2000x256 : S2000x256.ShapeCasts S2000x256
  packedbf16_S10000x256_S2000x256_0_0 : (Rect.unit (s := S10000x256) ![0, 0] S2000x256.size inb_S10000x256_S2000x256_0_0).PackedRows (EltTy.packing .bf16)
  inb_S10000x256_S2000x256_2000_0 : ∀ a, (![2000, 0] : Fin 2 → Nat) a + S2000x256.size a ≤ S10000x256.size a
  packedbf16_S10000x256_S2000x256_2000_0 : (Rect.unit (s := S10000x256) ![2000, 0] S2000x256.size inb_S10000x256_S2000x256_2000_0).PackedRows (EltTy.packing .bf16)
  inb_S10000x256_S2000x256_4000_0 : ∀ a, (![4000, 0] : Fin 2 → Nat) a + S2000x256.size a ≤ S10000x256.size a
  packedbf16_S10000x256_S2000x256_4000_0 : (Rect.unit (s := S10000x256) ![4000, 0] S2000x256.size inb_S10000x256_S2000x256_4000_0).PackedRows (EltTy.packing .bf16)
  inb_S10000x256_S2000x256_6000_0 : ∀ a, (![6000, 0] : Fin 2 → Nat) a + S2000x256.size a ≤ S10000x256.size a
  packedbf16_S10000x256_S2000x256_6000_0 : (Rect.unit (s := S10000x256) ![6000, 0] S2000x256.size inb_S10000x256_S2000x256_6000_0).PackedRows (EltTy.packing .bf16)
  inb_S10000x256_S2000x256_8000_0 : ∀ a, (![8000, 0] : Fin 2 → Nat) a + S2000x256.size a ≤ S10000x256.size a
  packedbf16_S10000x256_S2000x256_8000_0 : (Rect.unit (s := S10000x256) ![8000, 0] S2000x256.size inb_S10000x256_S2000x256_8000_0).PackedRows (EltTy.packing .bf16)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2x256_S1x256_0_0 : ∀ a, (![0, 0] : Fin 2 → Nat) a + S1x256.size a ≤ S2x256.size a
  inb_S2x256_S1x256_1_0 : ∀ a, (![1, 0] : Fin 2 → Nat) a + S1x256.size a ≤ S2x256.size a
  broadcasts_S1x256_S2000x256 : S1x256.Broadcasts S2000x256
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  reduces_S400x256_S256 : S400x256.Reduces [0] S256
  h_S400x256 : 0 < S400x256.numel
  shapeCasts_S400x256_S400x256 : S400x256.ShapeCasts S400x256
  inb_S400x256_S400x256_0_0 : ∀ a, (![0, 0] : Fin 2 → Nat) a + S400x256.size a ≤ S400x256.size a
  packedbf16_S400x256_S400x256_0_0 : (Rect.unit (s := S400x256) ![0, 0] S400x256.size inb_S400x256_S400x256_0_0).PackedRows (EltTy.packing .bf16)
  inb_S2000x256_S2000x256_0_0 : ∀ a, (![0, 0] : Fin 2 → Nat) a + S2000x256.size a ≤ S2000x256.size a
  dot_S2000x256_S256x256_S2000x256_1_0_0_1_n_n_wf : DotDims.WF S2000x256 S256x256 S2000x256 [1] [0] [0] [1] [] []
  dot_S400x10000_S10000x256_S400x256_1_0_0_1_n_n_wf : DotDims.WF S400x10000 S10000x256 S400x256 [1] [0] [0] [1] [] []
  hrank0 : 0 < grid0.rank
  k0_off1_inb : ∀ i : grid0.Coords, ∀ (k0_h3 : k0_cond3 i = 1#1), ∀ a, (k0_off1 i) a + S400x256.size a ≤ S10000x256.size a
  k0_off1_packedbf16 : ∀ i : grid0.Coords, ∀ (k0_h3 : k0_cond3 i = 1#1), (Rect.unit (s := S10000x256) (k0_off1 i) S400x256.size (k0_off1_inb i k0_h3)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S400x256.size a ≤ S10000x256.size a
  hwx0_10 : ∀ i : grid0.Coords, EltTy.bits .bf16 = 32 ∨ (Rect.block (s := S10000x256) S400x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2x256.size a ≤ S2x256.size a
  hwx0_11 : ∀ i : grid0.Coords, EltTy.bits .f32 = 32 ∨ (Rect.block (s := S2x256) S2x256.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .bf16 = 32 ∨ (Rect.block (s := S10000x256) S2000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x256.size a ≤ S2x256.size a
  hwx1_1 : ∀ i : grid1.Coords, EltTy.bits .f32 = 32 ∨ (Rect.block (s := S2x256) S2x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S10000x256.size a
  hwx1_2 : ∀ i : grid1.Coords, EltTy.bits .f32 = 32 ∨ (Rect.block (s := S10000x256) S2000x256.size (cc1_transform_2 i) (hinb1_2 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6_0) S400x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_1) S2x256.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond4 i == 1#1) | 11 => fun i => !(k0_cond7 i == 1#1) | ⟨_ + 12, h⟩ => absurd h (Nat.not_lt.2 (Nat.le_add_left _ _))

abbrev win1_0 : Pipeline.Window sig grid1 :=
  Pipeline.Window.ofSpec (Memref.whole main_v6_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S2x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 109
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S10000x256, .f32⟩
  | .hbm, ⟨11, _⟩ => ⟨S10000x256, .f32⟩
  | .hbm, ⟨12, _⟩ => ⟨S1x256, .f32⟩
  | .hbm, ⟨13, _⟩ => ⟨S10000x256, .f32⟩
  | .hbm, ⟨14, _⟩ => ⟨S10000x256, .f32⟩
  | .hbm, ⟨15, _⟩ => ⟨S_, .f32⟩
  | .hbm, ⟨16, _⟩ => ⟨S256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S_, .i32⟩
  | .hbm, ⟨21, _⟩ => ⟨S_, .f32⟩
  | .hbm, ⟨22, _⟩ => ⟨S256, .f32⟩
  | .hbm, ⟨23, _⟩ => ⟨S1x256, .f32⟩
  | .hbm, ⟨24, _⟩ => ⟨S_, .f32⟩
  | .hbm, ⟨25, _⟩ => ⟨S1x256, .f32⟩
  | .hbm, ⟨26, _⟩ => ⟨S1x256, .f32⟩
  | .hbm, ⟨27, _⟩ => ⟨S10000x256, .f32⟩
  | .hbm, ⟨28, _⟩ => ⟨S10000x256, .f32⟩
  | .hbm, ⟨29, _⟩ => ⟨S10000x256, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S10000x256, .f32⟩
  | .hbm, ⟨45, _⟩ => ⟨S10000x256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S1x256, .f32⟩
  | .hbm, ⟨51, _⟩ => ⟨S10000x256, .f32⟩
  | .hbm, ⟨52, _⟩ => ⟨S10000x256, .f32⟩
  | .hbm, ⟨53, _⟩ => ⟨S1x256, .f32⟩
  | .hbm, ⟨54, _⟩ => ⟨S10000x256, .f32⟩
  | .hbm, ⟨55, _⟩ => ⟨S10000x256, .f32⟩
  | .hbm, ⟨56, _⟩ => ⟨S1x256, .f32⟩
  | .hbm, ⟨57, _⟩ => ⟨S10000x256, .f32⟩
  | .hbm, ⟨58, _⟩ => ⟨S10000x256, .f32⟩
  | .hbm, ⟨59, _⟩ => ⟨S10000x256, .f32⟩
  | .hbm, ⟨60, _⟩ => ⟨S10000x256, .f32⟩
  | .hbm, ⟨61, _⟩ => ⟨S1x256, .f32⟩
  | .hbm, ⟨62, _⟩ => ⟨S10000x256, .f32⟩
  | .hbm, ⟨63, _⟩ => ⟨S10000x256, .f32⟩
  | .hbm, ⟨64, _⟩ => ⟨S_, .f32⟩
  | .hbm, ⟨65, _⟩ => ⟨S256, .f32⟩
  | .hbm, ⟨66, _⟩ => ⟨S_, .f32⟩
  | .hbm, ⟨67, _⟩ => ⟨S256, .f32⟩
  | .hbm, ⟨68, _⟩ => ⟨S256, .f32⟩
  | .hbm, ⟨69, _⟩ => ⟨S_, .i32⟩
  | .hbm, ⟨70, _⟩ => ⟨S_, .f32⟩
  | .hbm, ⟨71, _⟩ => ⟨S256, .f32⟩
  | .hbm, ⟨72, _⟩ => ⟨S1x256, .f32⟩
  | .hbm, ⟨73, _⟩ => ⟨S_, .f32⟩
  | .hbm, ⟨74, _⟩ => ⟨S1x256, .f32⟩
  | .hbm, ⟨75, _⟩ => ⟨S1x256, .f32⟩
  | .hbm, ⟨76, _⟩ => ⟨S10000x256, .f32⟩
  | .hbm, ⟨77, _⟩ => ⟨S10000x256, .f32⟩
  | .hbm, ⟨78, _⟩ => ⟨S10000x256, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S256, .f32⟩
  | .hbm, ⟨84, _⟩ => ⟨S256, .f32⟩
  | .hbm, ⟨85, _⟩ => ⟨S256, .f32⟩
  | .hbm, ⟨86, _⟩ => ⟨S_, .f32⟩
  | .hbm, ⟨87, _⟩ => ⟨S_, .i1⟩
  | .hbm, ⟨88, _⟩ => ⟨S_, .f32⟩
  | .hbm, ⟨89, _⟩ => ⟨S_, .f32⟩
  | .hbm, ⟨90, _⟩ => ⟨S256, .f32⟩
  | .hbm, ⟨91, _⟩ => ⟨S256, .f32⟩
  | .hbm, ⟨92, _⟩ => ⟨S1x256, .f32⟩
  | .hbm, ⟨93, _⟩ => ⟨S10000x256, .f32⟩
  | .hbm, ⟨94, _⟩ => ⟨S10000x256, .f32⟩
  | .hbm, ⟨95, _⟩ => ⟨S_, .f32⟩
  | .hbm, ⟨96, _⟩ => ⟨S256, .f32⟩
  | .hbm, ⟨97, _⟩ => ⟨S256, .f32⟩
  | .hbm, ⟨98, _⟩ => ⟨S256, .f32⟩
  | .hbm, ⟨99, _⟩ => ⟨S1x256, .f32⟩
  | .hbm, ⟨100, _⟩ => ⟨S10000x256, .f32⟩
  | .hbm, ⟨101, _⟩ => ⟨S10000x256, .f32⟩
  | .hbm, ⟨102, _⟩ => ⟨S1x256, .f32⟩
  | .hbm, ⟨103, _⟩ => ⟨S10000x256, .f32⟩
  | .hbm, ⟨104, _⟩ => ⟨S10000x256, .f32⟩
  | .hbm, ⟨105, _⟩ => ⟨S1x256, .f32⟩
  | .hbm, ⟨106, _⟩ => ⟨S10000x256, .f32⟩
  | .hbm, ⟨107, _⟩ => ⟨S10000x256, .f32⟩
  | .hbm, ⟨108, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_cst_3 : Ref sig .tc := ⟨.hbm, 37, rfl⟩
abbrev main_call0_v12 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_1 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_2 : Ref sig .tc := ⟨.hbm, 64, rfl⟩
abbrev main_v29 : Ref sig .tc := ⟨.hbm, 65, rfl⟩
abbrev main_cst_3 : Ref sig .tc := ⟨.hbm, 66, rfl⟩
abbrev main_v30 : Ref sig .tc := ⟨.hbm, 67, rfl⟩
abbrev main_v31 : Ref sig .tc := ⟨.hbm, 68, rfl⟩
abbrev main_c_4 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_cst_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_cst_1 : Ref sig .tc := ⟨.hbm, 80, rfl⟩
abbrev main_call1_v8 : Ref sig .tc := ⟨.hbm, 81, rfl⟩
abbrev main_call1_cst_2 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_cst_3 : Ref sig .tc := ⟨.hbm, 86, rfl⟩
abbrev main_call1_v12 : Ref sig .tc := ⟨.hbm, 87, rfl⟩
abbrev main_call1_cst_4 : Ref sig .tc := ⟨.hbm, 88, rfl⟩
abbrev main_call1_call0_v0 : Ref sig .tc := ⟨.hbm, 89, rfl⟩
abbrev main_call1_call0_v1 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_cst_5 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  reducesTo_S10000x256_S256_d0 : S10000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.KDefs.lean ====
import proofs.«112434_g77017353552286_cont_9to1c4b_820_16_alg».proof.Proof.Gen.KernelIdeal.Skeleton
import proofs.«112434_g77017353552286_cont_9to1c4b_820_16_alg».proof.Proof.Gen.KernelIdeal.Launch
import proofs.«112434_g77017353552286_cont_9to1c4b_820_16_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.ValueIdx

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev rc0 : Rect S10000x256 := Rect.unit (s := S10000x256) ![0, 0] S2000x256.size inb_S10000x256_S2000x256_0_0
abbrev rc1 : Rect S10000x256 := Rect.unit (s := S10000x256) ![2000, 0] S2000x256.size inb_S10000x256_S2000x256_2000_0
abbrev rc2 : Rect S10000x256 := Rect.unit (s := S10000x256) ![4000, 0] S2000x256.size inb_S10000x256_S2000x256_4000_0
abbrev rc3 : Rect S10000x256 := Rect.unit (s := S10000x256) ![6000, 0] S2000x256.size inb_S10000x256_S2000x256_6000_0
abbrev rc4 : Rect S10000x256 := Rect.unit (s := S10000x256) ![8000, 0] S2000x256.size inb_S10000x256_S2000x256_8000_0

abbrev rs0 : Rect S2x256 := Rect.unit (s := S2x256) ![0, 0] S1x256.size inb_S2x256_S1x256_0_0
abbrev rs1 : Rect S2x256 := Rect.unit (s := S2x256) ![1, 0] S1x256.size inb_S2x256_S1x256_1_0

section Region0

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

def pt (n : ℕ) : Fin cfg0.N := ⟨n % 50, by rw [show cfg0.N = 50 from N_0]; exact Nat.mod_lt _ (by decide)⟩

abbrev adjB (t : Fin cfg0.N) : Vec F S400x10000 .f32 := iblk0 V c 0 t
abbrev xB (t : Fin cfg0.N) : Vec F S10000x256 .f32 := iblk0 V c 1 t
abbrev w1B (t : Fin cfg0.N) : Vec F S256x256 .f32 := iblk0 V c 2 t
abbrev w2B (t : Fin cfg0.N) : Vec F S256x256 .f32 := iblk0 V c 3 t
abbrev b1B (t : Fin cfg0.N) : Vec F S1x256 .f32 := iblk0 V c 4 t
abbrev b2B (t : Fin cfg0.N) : Vec F S1x256 .f32 := iblk0 V c 5 t
abbrev g1B (t : Fin cfg0.N) : Vec F S1x256 .f32 := iblk0 V c 6 t
abbrev g2B (t : Fin cfg0.N) : Vec F S1x256 .f32 := iblk0 V c 7 t
abbrev be1B (t : Fin cfg0.N) : Vec F S1x256 .f32 := iblk0 V c 8 t
abbrev be2B (t : Fin cfg0.N) : Vec F S1x256 .f32 := iblk0 V c 9 t

end Region0

def supp1 (x : Vec F S10000x256 .f32) (w1 : Vec F S256x256 .f32) : Vec F S10000x256 .bf16 :=
  View.canon [⟨rc4, k0_pay19 (View.ld x rc4) w1⟩, ⟨rc3, k0_pay10 (View.ld x rc3) w1⟩, ⟨rc2, k0_pay9 (View.ld x rc2) w1⟩,
    ⟨rc1, k0_pay8 (View.ld x rc1) w1⟩, ⟨rc0, k0_pay7 (View.ld x rc0) w1⟩]

def stReset (a : Vec F S400x10000 .f32) (s : Vec F S10000x256 .bf16) : Vec F S2x256 .f32 :=
  View.canon [⟨rs1, k0_pay27 a s⟩, ⟨rs0, k0_pay26 a s⟩]

def stAcc (a : Vec F S400x10000 .f32) (s : Vec F S10000x256 .bf16) (st : Vec F S2x256 .f32) : Vec F S2x256 .f32 :=
  View.canon [⟨rs1, k0_pay2 (k0_pay23 a s) (View.ld st rs1)⟩, ⟨rs0, k0_pay1 (k0_pay22 a s) (View.ld st rs0)⟩]

def sc1 (b g : Vec F S1x256 .f32) (st : Vec F S2x256 .f32) : FVec F S1x256 .f32 :=
  k0_pay13 (Scalar.ofBits .f32 0x461C4000#32) b g (View.ld st rs0) (View.ld st rs1)
def sh1 (b g be : Vec F S1x256 .f32) (st : Vec F S2x256 .f32) : FVec F S1x256 .f32 :=
  k0_pay14 (Scalar.ofBits .f32 0x461C4000#32) b g be (View.ld st rs0) (View.ld st rs1)

def supp2 (b g be : Vec F S1x256 .f32) (st : Vec F S2x256 .f32) (h1 : Vec F S10000x256 .bf16) (w2 : Vec F S256x256 .f32) :
    Vec F S10000x256 .bf16 :=
  View.canon [⟨rc4, k0_pay20 (sc1 b g st) (sh1 b g be st) (View.ld h1 rc4) w2⟩,
    ⟨rc3, k0_pay18 (sc1 b g st) (sh1 b g be st) (View.ld h1 rc3) w2⟩,
    ⟨rc2, k0_pay17 (sc1 b g st) (sh1 b g be st) (View.ld h1 rc2) w2⟩,
    ⟨rc1, k0_pay16 (sc1 b g st) (sh1 b g be st) (View.ld h1 rc1) w2⟩,
    ⟨rc0, k0_pay15 (Scalar.ofBits .f32 0x461C4000#32) b g be (View.ld st rs0) (View.ld st rs1) (View.ld h1 rc0) w2⟩]

def coefOf (b g be : Vec F S1x256 .f32) (st : Vec F S2x256 .f32) : Vec F S2x256 .f32 :=
  View.canon [⟨rs1, k0_pay6 b g be (View.ld st rs0) (View.ld st rs1)⟩, ⟨rs0, k0_pay5 b g (View.ld st rs0) (View.ld st rs1)⟩]

section Pure

variable (a : ℕ → Vec F S400x10000 .f32) (x : Vec F S10000x256 .f32) (w1 w2 : Vec F S256x256 .f32)
  (b1 g1 be1 b2 g2 be2 : Vec F S1x256 .f32)

def stA_ : ℕ → Vec F S2x256 .f32
  | 0 => stReset (a 0) (supp1 x w1)
  | n + 1 => stAcc (a (n + 1)) (supp1 x w1) (stA_ n)

def h1A_ : Vec F S10000x256 .bf16 := fun y =>
  k0_pay24 (a ((y 0).val / 400)) (supp1 x w1)
    (ValueIdx.ix2 (⟨(y 0).val % 400, Nat.mod_lt _ (by decide)⟩ : Fin 400) (⟨(y 1).val, (y 1).isLt⟩ : Fin 256))

def suppB_ : Vec F S10000x256 .bf16 := supp2 b1 g1 be1 (stA_ a x w1 24) (h1A_ a x w1) w2

def stB_ : ℕ → Vec F S2x256 .f32
  | 0 => stReset (a 25) (suppB_ a x w1 w2 b1 g1 be1)
  | n + 1 => stAcc (a (25 + (n + 1))) (suppB_ a x w1 w2 b1 g1 be1) (stB_ n)

def h2Blk_ (n : ℕ) : Vec F S400x256 .bf16 := k0_pay25 (a n) (suppB_ a x w1 w2 b1 g1 be1)

def coefB_ : Vec F S2x256 .f32 := coefOf b2 g2 be2 (stB_ a x w1 w2 b1 g1 be1 24)

end Pure

section Region0Data

variable (V : (c : Dev nD) → (b : Ref sig .tc) → Buf (Elt F) ((c : Thread nD τ).loc b)) (c : Dev nD)

abbrev aAt (n : ℕ) : Vec F S400x10000 .f32 := adjB V c (pt n)

def suppA : Vec F S10000x256 .bf16 := supp1 (xB V c (pt 0)) (w1B V c (pt 0))

def stA (n : ℕ) : Vec F S2x256 .f32 := stA_ (aAt V c) (xB V c (pt 0)) (w1B V c (pt 0)) n

def h1A : Vec F S10000x256 .bf16 := h1A_ (aAt V c) (xB V c (pt 0)) (w1B V c (pt 0))

def suppB : Vec F S10000x256 .bf16 :=
  suppB_ (aAt V c) (xB V c (pt 0)) (w1B V c (pt 0)) (w2B V c (pt 25)) (b1B V c (pt 25)) (g1B V c (pt 25)) (be1B V c (pt 25))

def stB (n : ℕ) : Vec F S2x256 .f32 :=
  stB_ (aAt V c) (xB V c (pt 0)) (w1B V c (pt 0)) (w2B V c (pt 25)) (b1B V c (pt 25)) (g1B V c (pt 25)) (be1B V c (pt 25)) n

def h2Blk (t : Fin cfg0.N) : Vec F S400x256 .bf16 := k0_pay25 (adjB V c t) (suppB V c)

def coefB : Vec F S2x256 .f32 := coefOf (b2B V c (pt 49)) (g2B V c (pt 49)) (be2B V c (pt 49)) (stB V c 24)

def suppAt (n : ℕ) : Vec F S10000x256 .bf16 := if n < 25 then suppA V c else suppB V c
def stAt (n : ℕ) : Vec F S2x256 .f32 := if n < 25 then stA V c n else stB V c (n - 25)

def H1Upto (n : ℕ) (f : Vec F S10000x256 .bf16) : Prop := ∀ y : S10000x256.Idx, (y 0).val < 400 * min (n + 1) 25 → f y = h1A V c y

end Region0Data

end Cert.KernelIdeal.Hand

end
-- ==== Proof.KData.lean ====
import proofs.«112434_g77017353552286_cont_9to1c4b_820_16_alg».proof.Proof.KDefs

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev scM14 : Memref sig .tc .vmem S10000x256 .bf16 := Memref.whole cc0_scratch0
abbrev scM15 : Memref sig .tc .vmem S10000x256 .bf16 := Memref.whole cc0_scratch1
abbrev scM16 : Memref sig .tc .vmem S2x256 .f32 := Memref.whole cc0_scratch2

def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

section Region0

variable (V : (c : Dev nD) → (b : Ref sig .tc) → Buf (Elt F) ((c : Thread nD τ).loc b))

def PhiS0 (c : Dev nD) : (n : ℕ) → n ≤ cfg0.N → sProp 𝕄
  | 0, _ => Pipeline.ΦA spec0 c
  | n + 1, _ => iprop(owns (c : Thread nD τ) scM14 fullShare (suppAt V c n)
      ∗ (∃ f, owns (c : Thread nD τ) scM15 fullShare f ∗ ⌜H1Upto V c n f⌝)
      ∗ owns (c : Thread nD τ) scM16 fullShare (stAt V c n)
      ∗ others0 c ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => h2Blk V c t
    | ⟨11, _⟩ => coefB V c
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_10 (c : Dev nD) (t : Fin cfg0.N) : (dat0 V c).after 10 t = h2Blk V c t := by dsimp only [dat0]
theorem after0_11 (c : Dev nD) (t : Fin cfg0.N) : (dat0 V c).after 11 t = coefB V c := by dsimp only [dat0]

end Region0

abbrev r1full : Rect S2000x256 := Rect.unit (s := S2000x256) ![0, 0] S2000x256.size inb_S2000x256_S2000x256_0_0

def out1_2 (x0 : Vec F S2000x256 .bf16) (x1 : Vec F S2x256 .f32) : Vec F S2000x256 .f32 :=
  View.canon [⟨r1full, k1_pay1 (View.ld x0 r1full) (View.ld x1 rs0) (View.ld x1 rs1)⟩]

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

end Region1

section Fold

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b

def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b

end Fold

end Cert.KernelIdeal.Hand

end
-- ==== Proof.Runs0.lean ====
import proofs.«112434_g77017353552286_cont_9to1c4b_820_16_alg».proof.Proof.KData
import Idealize.ShloMosaic.Lib.Tactic
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond0_1 (i : grid0.Coords) : Prop := Scalar.cmpi .ne (Scalar.extui (Scalar.andi (Scalar.cmpi .eq (BitVec.ofNat 32 (i 0).val) 0#32) (Scalar.cmpi .eq (BitVec.ofNat 32 (i 1).val) 0#32))) 0#32 = 1#1

abbrev cond0_2 (i : grid0.Coords) : Prop := Scalar.cmpi .ne (Scalar.extui (Scalar.andi (Scalar.cmpi .eq (BitVec.ofNat 32 (i 0).val) 1#32) (Scalar.cmpi .eq (BitVec.ofNat 32 (i 1).val) 0#32))) 0#32 = 1#1

abbrev cond0_3 (i : grid0.Coords) : Prop := k0_cond3 i = 1#1

abbrev cond0_4 (i : grid0.Coords) : Prop := k0_cond4 i = 1#1

abbrev cond0_5 (i : grid0.Coords) : Prop := Scalar.cmpi .ne (Scalar.extui (Scalar.cmpi .eq (BitVec.ofNat 32 (i 1).val) 0#32)) 0#32 = 1#1

abbrev cond0_6 (i : grid0.Coords) : Prop := Scalar.cmpi .ne (Scalar.extui (Scalar.cmpi .sgt (BitVec.ofNat 32 (i 1).val) 0#32)) 0#32 = 1#1

abbrev cond0_7 (i : grid0.Coords) : Prop := k0_cond7 i = 1#1

/-- The seven branch conditions in closed form on the point's number n = 25·p + i. -/
theorem hcond0 : ∀ t : Fin cfg0.N, (cond0_1 (grid0.coords t) ↔ t.val = 0) ∧ (cond0_2 (grid0.coords t) ↔ t.val = 25)
    ∧ (cond0_3 (grid0.coords t) ↔ t.val < 25) ∧ (cond0_4 (grid0.coords t) ↔ 25 ≤ t.val) ∧ (cond0_5 (grid0.coords t) ↔ t.val % 25 = 0)
    ∧ (cond0_6 (grid0.coords t) ↔ t.val % 25 ≠ 0) ∧ (cond0_7 (grid0.coords t) ↔ t.val = 49) :=
  (by decide +kernel : ∀ t : Fin grid0.N, _)
theorem coord1_eq : ∀ t : Fin cfg0.N, ((grid0.coords t) 1).val = t.val % 25 :=
  (by decide +kernel : ∀ t : Fin grid0.N, ((grid0.coords t) 1).val = t.val % 25)

theorem liveAt0 : ∀ w : Fin cfg0.W, w.val < 10 → ∀ t : Fin cfg0.N, cfg0.idle w (grid0.coords t) = false := by decide +kernel
theorem idleAt0_10 : ∀ t : Fin cfg0.N, ¬cond0_4 (grid0.coords t) → cfg0.idle 10 (grid0.coords t) = true := by decide +kernel
theorem liveAt0_10 : ∀ t : Fin cfg0.N, cond0_4 (grid0.coords t) → cfg0.idle 10 (grid0.coords t) = false := by decide +kernel
theorem noFlush0_10 : ∀ t : Fin cfg0.N, ¬cond0_4 (grid0.coords t) → (cfg0.win 10).flush t = false := by decide +kernel
theorem idleAt0_11 : ∀ t : Fin cfg0.N, ¬cond0_7 (grid0.coords t) → cfg0.idle 11 (grid0.coords t) = true := by decide +kernel
theorem liveAt0_11 : ∀ t : Fin cfg0.N, cond0_7 (grid0.coords t) → cfg0.idle 11 (grid0.coords t) = false := by decide +kernel
theorem noFlush0_11 : ∀ t : Fin cfg0.N, ¬cond0_7 (grid0.coords t) → (cfg0.win 11).flush t = false := by decide +kernel

theorem PhiA0_eq (c : Dev nD) :
    (Pipeline.ΦA spec0 c : sProp 𝕄)
      = iprop(((∃ d, owns (c : Thread nD τ) scM14 fullShare d) ∗ (∃ d, owns (c : Thread nD τ) scM15 fullShare d)
          ∗ (∃ d, owns (c : Thread nD τ) scM16 fullShare d) ∗ others0 c) ∗ ∃ r, prngReg c r) := by
  unfold Pipeline.ΦA; rw [scopedRest0_eq]; simp only [scM14, scM15, scM16, owns_whole, others0]; try rfl

def blkWritten (k : ℕ) (blk : Vec F S400x256 .bf16) (f f' : Vec F S10000x256 .bf16) : Prop :=
  (∀ y : S10000x256.Idx, ∀ (hlo : 400 * k ≤ (y 0).val) (hhi : (y 0).val < 400 * k + 400),
      f' y = blk (ValueIdx.ix2 (⟨(y 0).val - 400 * k, by omega⟩ : Fin 400) (⟨(y 1).val, (y 1).isLt⟩ : Fin 256)))
    ∧ (∀ y : S10000x256.Idx, ¬(400 * k ≤ (y 0).val ∧ (y 0).val < 400 * k + 400) → f' y = f y)

structure Stage where
  a2 : Memref sig .tc .vmem S400x10000 .f32
  a3 : Memref sig .tc .vmem S10000x256 .f32
  (a4 a5 : Memref sig .tc .vmem S256x256 .f32)
  (a6 a7 a8 a9 a10 a11 : Memref sig .tc .vmem S1x256 .f32)
  a12 : Memref sig .tc .vmem S400x256 .bf16
  a13 : Memref sig .tc .vmem S2x256 .f32
  h2 : a2.IsWhole
  h3 : a3.IsWhole
  h4 : a4.IsWhole
  h5 : a5.IsWhole
  h6 : a6.IsWhole
  h7 : a7.IsWhole
  h8 : a8.IsWhole
  h9 : a9.IsWhole
  h10 : a10.IsWhole
  h11 : a11.IsWhole
  h12 : a12.IsWhole
  h13 : a13.IsWhole

abbrev stage0 (t : Fin cfg0.N) : Stage :=
  ⟨win0_0.stage (cfg0.slots t 0), win0_1.stage (cfg0.slots t 1), win0_2.stage (cfg0.slots t 2), win0_3.stage (cfg0.slots t 3),
    win0_4.stage (cfg0.slots t 4), win0_5.stage (cfg0.slots t 5), win0_6.stage (cfg0.slots t 6), win0_7.stage (cfg0.slots t 7),
    win0_8.stage (cfg0.slots t 8), win0_9.stage (cfg0.slots t 9), win0_10.stage (cfg0.slots t 10), win0_11.stage (cfg0.slots t 11),
    hstage0_0 ((cfg0.slots t 0).cast nbuf0_0), hstage0_1 ((cfg0.slots t 1).cast nbuf0_1), hstage0_2 ((cfg0.slots t 2).cast nbuf0_2),
    hstage0_3 ((cfg0.slots t 3).cast nbuf0_3), hstage0_4 ((cfg0.slots t 4).cast nbuf0_4), hstage0_5 ((cfg0.slots t 5).cast nbuf0_5),
    hstage0_6 ((cfg0.slots t 6).cast nbuf0_6), hstage0_7 ((cfg0.slots t 7).cast nbuf0_7), hstage0_8 ((cfg0.slots t 8).cast nbuf0_8),
    hstage0_9 ((cfg0.slots t 9).cast nbuf0_9), hstage0_10 ((cfg0.slots t 10).cast nbuf0_10), hstage0_11 ((cfg0.slots t 11).cast nbuf0_11)⟩

def body0 (i : grid0.Coords) (s : Stage) :=
  cc0__gcn_kern (F := F) i s.a2 s.h2 s.a3 s.h3 s.a4 s.h4 s.a5 s.h5 s.a6 s.h6 s.a7 s.h7 s.a8 s.h8 s.a9 s.h9 s.a10 s.h10 s.a11 s.h11 s.a12 s.h12
    s.a13 s.h13 scM14 (Memref.isWhole_whole _) scM15 (Memref.isWhole_whole _) scM16 (Memref.isWhole_whole _)

section Foot

variable (c : Dev nD) (s : Stage) (x0 : Vec F S400x10000 .f32) (x1 : Vec F S10000x256 .f32) (x2 x3 : Vec F S256x256 .f32)
  (x4 x5 x6 x7 x8 x9 : Vec F S1x256 .f32)

/-- The ten read-only inputs, each held at its block. -/
def ins : sProp 𝕄 :=
  iprop(owns (c : Thread nD τ) s.a2 fullShare x0 ∗ owns (c : Thread nD τ) s.a3 fullShare x1 ∗ owns (c : Thread nD τ) s.a4 fullShare x2
    ∗ owns (c : Thread nD τ) s.a5 fullShare x3 ∗ owns (c : Thread nD τ) s.a6 fullShare x4 ∗ owns (c : Thread nD τ) s.a7 fullShare x5
    ∗ owns (c : Thread nD τ) s.a8 fullShare x6 ∗ owns (c : Thread nD τ) s.a9 fullShare x7 ∗ owns (c : Thread nD τ) s.a10 fullShare x8
    ∗ owns (c : Thread nD τ) s.a11 fullShare x9)

/-- Everything the body touches, at given contents: the ten inputs, the two output blocks, the three scratch buffers. -/
def foot (o12 : Vec F S400x256 .bf16) (o13 : Vec F S2x256 .f32) (s14 f15 : Vec F S10000x256 .bf16) (st : Vec F S2x256 .f32) : sProp 𝕄 :=
  iprop(ins c s x0 x1 x2 x3 x4 x5 x6 x7 x8 x9 ∗ owns (c : Thread nD τ) s.a12 fullShare o12 ∗ owns (c : Thread nD τ) s.a13 fullShare o13
    ∗ owns (c : Thread nD τ) scM14 fullShare s14 ∗ owns (c : Thread nD τ) scM15 fullShare f15 ∗ owns (c : Thread nD τ) scM16 fullShare st)

end Foot

theorem owns_of (c : Dev nD) {sp : Space} {sh : Shape} {e : EltTy} (a : Memref sig .tc sp sh e) (f : a.view.ty.Contents (Elt F))
    (x : sh.Idx → Elt F e) (h : a.view.read (Elt F) f = x) :
    (a.view.loc (c : Thread nD τ) ↦[a.view.set]{fullShare} f : sProp 𝕄)
      ⊢ iprop(∃ f, ⌜a.view.read (Elt F) f = x⌝ ∗ (a.view.loc (c : Thread nD τ) ↦[a.view.set]{fullShare} f)) := by
  iintro H; iexists f; isplitr; · ipureintro; exact h
  iexact H

/-- Contents that read the blocks give the ten inputs back as they were found. -/
theorem ins_back (c : Dev nD) (s : Stage) {x0 : Vec F S400x10000 .f32} {x1 : Vec F S10000x256 .f32} {x2 x3 : Vec F S256x256 .f32}
    {x4 x5 x6 x7 x8 x9 : Vec F S1x256 .f32} {f2 f3 f4 f5 f6 f7 f8 f9 f10 f11}
    (h2 : s.a2.view.read (Elt F) f2 = x0) (h3 : s.a3.view.read (Elt F) f3 = x1) (h4 : s.a4.view.read (Elt F) f4 = x2)
    (h5 : s.a5.view.read (Elt F) f5 = x3) (h6 : s.a6.view.read (Elt F) f6 = x4) (h7 : s.a7.view.read (Elt F) f7 = x5)
    (h8 : s.a8.view.read (Elt F) f8 = x6) (h9 : s.a9.view.read (Elt F) f9 = x7) (h10 : s.a10.view.read (Elt F) f10 = x8)
    (h11 : s.a11.view.read (Elt F) f11 = x9) :
    (iprop((s.a2.view.loc (c : Thread nD τ) ↦[s.a2.view.set]{fullShare} f2)
      ∗ (s.a3.view.loc (c : Thread nD τ) ↦[s.a3.view.set]{fullShare} f3)
      ∗ (s.a4.view.loc (c : Thread nD τ) ↦[s.a4.view.set]{fullShare} f4)
      ∗ (s.a5.view.loc (c : Thread nD τ) ↦[s.a5.view.set]{fullShare} f5)
      ∗ (s.a6.view.loc (c : Thread nD τ) ↦[s.a6.view.set]{fullShare} f6)
      ∗ (s.a7.view.loc (c : Thread nD τ) ↦[s.a7.view.set]{fullShare} f7)
      ∗ (s.a8.view.loc (c : Thread nD τ) ↦[s.a8.view.set]{fullShare} f8)
      ∗ (s.a9.view.loc (c : Thread nD τ) ↦[s.a9.view.set]{fullShare} f9)
      ∗ (s.a10.view.loc (c : Thread nD τ) ↦[s.a10.view.set]{fullShare} f10)
      ∗ (s.a11.view.loc (c : Thread nD τ) ↦[s.a11.view.set]{fullShare} f11)) : sProp 𝕄)
      ⊢ ins c s x0 x1 x2 x3 x4 x5 x6 x7 x8 x9 := by
  unfold ins owns
  iintro ⟨H2, H3, H4, H5, H6, H7, H8, H9, H10, H11⟩
  ihave H2 := owns_of c s.a2 f2 x0 h2 $$ H2
  ihave H3 := owns_of c s.a3 f3 x1 h3 $$ H3
  ihave H4 := owns_of c s.a4 f4 x2 h4 $$ H4
  ihave H5 := owns_of c s.a5 f5 x3 h5 $$ H5
  ihave H6 := owns_of c s.a6 f6 x4 h6 $$ H6
  ihave H7 := owns_of c s.a7 f7 x5 h7 $$ H7
  ihave H8 := owns_of c s.a8 f8 x6 h8 $$ H8
  ihave H9 := owns_of c s.a9 f9 x7 h9 $$ H9
  ihave H10 := owns_of c s.a10 f10 x8 h10 $$ H10
  ihave H11 := owns_of c s.a11 f11 x9 h11 $$ H11
  iframe H2 H3 H4 H5 H6 H7 H8 H9 H10
  iexact H11

theorem zeroOff : (![0, 0] : Fin 2 → Nat) = fun _ => 0 := funext fun a => by
  match a with
  | ⟨0, _⟩ => rfl
  | ⟨1, _⟩ => rfl

theorem cover_slabs (p4 p3 p2 p1 p0 : Vec F S2000x256 .bf16) (y : S10000x256.Idx) :
    ∃ pc ∈ ([⟨rc4, p4⟩, ⟨rc3, p3⟩, ⟨rc2, p2⟩, ⟨rc1, p1⟩, ⟨rc0, p0⟩] : List (View.Piece (Elt F) S10000x256 .bf16)), y ∈ pc.1.set :=
  View.cover_of_tiled [⟨rc4, p4⟩, ⟨rc3, p3⟩, ⟨rc2, p2⟩, ⟨rc1, p1⟩, ⟨rc0, p0⟩] S2000x256.size (by rfl) y

theorem cover_rows (p1 p0 : Vec F S1x256 .f32) (y : S2x256.Idx) :
    ∃ pc ∈ ([⟨rs1, p1⟩, ⟨rs0, p0⟩] : List (View.Piece (Elt F) S2x256 .f32)), y ∈ pc.1.set :=
  View.cover_of_tiled [⟨rs1, p1⟩, ⟨rs0, p0⟩] S1x256.size (by rfl) y

theorem cover_blk (p : Vec F S400x256 .bf16) (y : S400x256.Idx) :
    ∃ pc ∈ ([⟨Rect.unit (s := S400x256) ![0, 0] S400x256.size inb_S400x256_S400x256_0_0, p⟩] : List (View.Piece (Elt F) S400x256 .bf16)),
      y ∈ pc.1.set :=
  View.cover_of_tiled _ S400x256.size (by rfl) y

/-- One 400-row block stored at rows 400·i and on: those rows read the block, every other row what was there. -/
theorem blkWritten_store {κ : Kind} {sp : Space} (i : grid0.Coords) (h3 : k0_cond3 i = 1#1) (v : View sig κ sp S10000x256 .bf16)
    (g : v.ty.Contents (Elt F)) (f15 : Vec F S10000x256 .bf16) (hg : v.read (Elt F) g = f15) (blk : Vec F S400x256 .bf16) :
    blkWritten (i 1).val blk f15
      (v.read (Elt F) (v.writes (Elt F) g [⟨Rect.unit (s := S10000x256) (k0_off1 i) S400x256.size (k0_off1_inb i h3), blk⟩])) := by
  constructor
  · intro y hlo hhi
    exact View.read_writes_cons_rows_of_mem (d := ![10000, 256]) v g (k0_off1_inb i h3) blk [] y
      (ValueIdx.ix2 (⟨(y 0).val - 400 * (i 1).val, by omega⟩ : Fin 400) (⟨(y 1).val, (y 1).isLt⟩ : Fin 256)) (k0_off1_eq i)
      (by show (y 0).val = 400 * (i 1).val + ((y 0).val - 400 * (i 1).val); omega) rfl
  · intro y hy
    rw [View.read_writes_cons_rows_of_not_mem (d := ![10000, 256]) v g (k0_off1_inb i h3) blk [] y (k0_off1_eq i)
      (show S400x256.size 0 = 400 from rfl) (by omega), View.writes_nil, hg]

end Cert.KernelIdeal.Hand

end
-- ==== Proof.Run0A.lean ====
import proofs.«112434_g77017353552286_cont_9to1c4b_820_16_alg».proof.Proof.Runs0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Point (0, 0): the prologue fills the support with X·W₁, the block goes to h₁, the statistics rows restart. -/
theorem run0_A (c : Dev nD) (E : Set ℕ) (i : grid0.Coords) (h1 : cond0_1 i) (h2 : ¬cond0_2 i) (h3 : cond0_3 i) (h4 : ¬cond0_4 i) (h5 : cond0_5 i) (h6 : ¬cond0_6 i) (h7 : ¬cond0_7 i)
    (s : Stage) (x0 : Vec F S400x10000 .f32) (x1 : Vec F S10000x256 .f32) (x2 x3 : Vec F S256x256 .f32) (x4 x5 x6 x7 x8 x9 : Vec F S1x256 .f32)
    (o12 : Vec F S400x256 .bf16) (o13 : Vec F S2x256 .f32) (s14 f15 : Vec F S10000x256 .bf16) (st : Vec F S2x256 .f32) (K : PUnit → sProp 𝕄) :
    iprop(foot c s x0 x1 x2 x3 x4 x5 x6 x7 x8 x9 o12 o13 s14 f15 st
        ∗ ((∃ f', ⌜blkWritten (i 1).val (k0_pay24 x0 (supp1 x1 x2)) f15 f'⌝ ∗ foot c s x0 x1 x2 x3 x4 x5 x6 x7 x8 x9 o12 o13 (supp1 x1 x2) f' (stReset x0 (supp1 x1 x2))) -∗ K ⟨⟩))
      ⊢ wp frame (wpE (defs₀ (F := F)) Variants.none c none) E (body0 i s) K := by
  unfold body0
  simp only [cc0__gcn_kern_eq_skeleton]; unfold cc0__gcn_kern_skel
  conv => arg 1; arg 1; unfold foot ins owns
  iintro ⟨⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%f12, %hf12, H12⟩, ⟨%f13, %hf13, H13⟩, ⟨%f14, %hf14, H14⟩, ⟨%g15, %hf15, H15⟩, ⟨%f16, %hf16, H16⟩⟩, Hk⟩
  sl_exec (disch := first | exact h1 | exact h2 | exact h3 | exact h4 | exact h5 | exact h6 | exact h7)
  sl_step
  iapply Hk
  unfold foot owns
  iexists _; isplitr
  swap
  · isplitl [H2 H3 H4 H5 H6 H7 H8 H9 H10 H11]
    · iapply ins_back c s hf2 hf3 hf4 hf5 hf6 hf7 hf8 hf9 hf10 hf11
      iframe H2 H3 H4 H5 H6 H7 H8 H9 H10
      iexact H11
    isplitl [H12]; · iapply owns_of c s.a12 f12 o12 hf12; iexact H12
    isplitl [H13]; · iapply owns_of c s.a13 f13 o13 hf13; iexact H13
    isplitl [H14]
    · iexists _; isplitr
      swap; · iexact H14
      ipureintro
      sl_unfold_run_names
      rw [View.read_writes_eq_canon _ _ _ (cover_slabs _ _ _ _ _)]
      unfold supp1
      simp only [View.readAt_eq_ld, hf2, hf3, hf4, View.ld_unit_zero (S := S256x256) zeroOff, View.ld_unit_zero (S := S400x10000) zeroOff, View.ld_unit_zero (S := S10000x256) zeroOff]
    isplitl [H15]
    · iexists _; isplitr
      swap; · iexact H15
      ipureintro; rfl
    iexists _; isplitr
    swap; · iexact H16
    ipureintro
    sl_unfold_run_names
    rw [View.read_writes_eq_canon _ _ _ (cover_rows _ _), View.readCov_eq_canon_ld _ _ _ (cover_slabs _ _ _ _ _)]
    unfold stReset supp1
    simp only [View.readAt_eq_ld, hf2, hf3, hf4, View.ld_unit_zero (S := S256x256) zeroOff, View.ld_unit_zero (S := S400x10000) zeroOff, View.ld_unit_zero (S := S10000x256) zeroOff]
  ipureintro
  sl_unfold_run_names
  rw [View.readCov_eq_canon_ld _ _ _ (cover_slabs _ _ _ _ _)]
  unfold supp1
  simp only [View.readAt_eq_ld, hf2, hf3, hf4, View.ld_unit_zero (S := S256x256) zeroOff, View.ld_unit_zero (S := S400x10000) zeroOff, View.ld_unit_zero (S := S10000x256) zeroOff]
  exact blkWritten_store i h3 scM15.view g15 f15 hf15 _

end Cert.KernelIdeal.Hand

end
-- ==== Proof.Run0B.lean ====
import proofs.«112434_g77017353552286_cont_9to1c4b_820_16_alg».proof.Proof.Runs0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Points (0, i), i > 0: the block goes to h₁ and its column sums are added to the statistics rows. -/
theorem run0_B (c : Dev nD) (E : Set ℕ) (i : grid0.Coords) (h1 : ¬cond0_1 i) (h2 : ¬cond0_2 i) (h3 : cond0_3 i) (h4 : ¬cond0_4 i) (h5 : ¬cond0_5 i) (h6 : cond0_6 i) (h7 : ¬cond0_7 i)
    (s : Stage) (x0 : Vec F S400x10000 .f32) (x1 : Vec F S10000x256 .f32) (x2 x3 : Vec F S256x256 .f32) (x4 x5 x6 x7 x8 x9 : Vec F S1x256 .f32)
    (o12 : Vec F S400x256 .bf16) (o13 : Vec F S2x256 .f32) (s14 f15 : Vec F S10000x256 .bf16) (st : Vec F S2x256 .f32) (K : PUnit → sProp 𝕄) :
    iprop(foot c s x0 x1 x2 x3 x4 x5 x6 x7 x8 x9 o12 o13 s14 f15 st
        ∗ ((∃ f', ⌜blkWritten (i 1).val (k0_pay24 x0 s14) f15 f'⌝ ∗ foot c s x0 x1 x2 x3 x4 x5 x6 x7 x8 x9 o12 o13 s14 f' (stAcc x0 s14 st)) -∗ K ⟨⟩))
      ⊢ wp frame (wpE (defs₀ (F := F)) Variants.none c none) E (body0 i s) K := by
  unfold body0
  simp only [cc0__gcn_kern_eq_skeleton]; unfold cc0__gcn_kern_skel
  conv => arg 1; arg 1; unfold foot ins owns
  iintro ⟨⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%f12, %hf12, H12⟩, ⟨%f13, %hf13, H13⟩, ⟨%f14, %hf14, H14⟩, ⟨%g15, %hf15, H15⟩, ⟨%f16, %hf16, H16⟩⟩, Hk⟩
  sl_exec (disch := first | exact h1 | exact h2 | exact h3 | exact h4 | exact h5 | exact h6 | exact h7)
  sl_step
  iapply Hk
  unfold foot owns
  iexists _; isplitr
  swap
  · isplitl [H2 H3 H4 H5 H6 H7 H8 H9 H10 H11]
    · iapply ins_back c s hf2 hf3 hf4 hf5 hf6 hf7 hf8 hf9 hf10 hf11
      iframe H2 H3 H4 H5 H6 H7 H8 H9 H10
      iexact H11
    isplitl [H12]; · iapply owns_of c s.a12 f12 o12 hf12; iexact H12
    isplitl [H13]; · iapply owns_of c s.a13 f13 o13 hf13; iexact H13
    isplitl [H14]; · iapply owns_of c scM14 f14 s14 hf14; iexact H14
    isplitl [H15]
    · iexists _; isplitr
      swap; · iexact H15
      ipureintro; rfl
    iexists _; isplitr
    swap; · iexact H16
    ipureintro
    sl_unfold_run_names
    rw [View.read_writes_eq_canon _ _ _ (cover_rows _ _)]
    unfold stAcc
    simp only [View.readAt_eq_ld, hf2, hf14, hf16, View.ld_unit_zero (S := S400x10000) zeroOff, View.ld_unit_zero (S := S10000x256) zeroOff]
  ipureintro
  simp only [View.readAt_eq_ld, hf2, hf14, View.ld_unit_zero (S := S400x10000) zeroOff, View.ld_unit_zero (S := S10000x256) zeroOff]
  exact blkWritten_store i h3 scM15.view g15 f15 hf15 _

end Cert.KernelIdeal.Hand

end
-- ==== Proof.Run0C.lean ====
import proofs.«112434_g77017353552286_cont_9to1c4b_820_16_alg».proof.Proof.Runs0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Point (1, 0): the prologue refills the support from h₁ and the finished rows, the block goes out, the rows restart. -/
theorem run0_C (c : Dev nD) (E : Set ℕ) (i : grid0.Coords) (h1 : ¬cond0_1 i) (h2 : cond0_2 i) (h3 : ¬cond0_3 i) (h4 : cond0_4 i) (h5 : cond0_5 i) (h6 : ¬cond0_6 i) (h7 : ¬cond0_7 i)
    (s : Stage) (x0 : Vec F S400x10000 .f32) (x1 : Vec F S10000x256 .f32) (x2 x3 : Vec F S256x256 .f32) (x4 x5 x6 x7 x8 x9 : Vec F S1x256 .f32)
    (o12 : Vec F S400x256 .bf16) (o13 : Vec F S2x256 .f32) (s14 f15 : Vec F S10000x256 .bf16) (st : Vec F S2x256 .f32) (K : PUnit → sProp 𝕄) :
    iprop(foot c s x0 x1 x2 x3 x4 x5 x6 x7 x8 x9 o12 o13 s14 f15 st
        ∗ (foot c s x0 x1 x2 x3 x4 x5 x6 x7 x8 x9 (k0_pay25 x0 (supp2 x4 x6 x8 st f15 x3)) o13 (supp2 x4 x6 x8 st f15 x3) f15 (stReset x0 (supp2 x4 x6 x8 st f15 x3)) -∗ K ⟨⟩))
      ⊢ wp frame (wpE (defs₀ (F := F)) Variants.none c none) E (body0 i s) K := by
  unfold body0
  simp only [cc0__gcn_kern_eq_skeleton]; unfold cc0__gcn_kern_skel
  conv => arg 1; arg 1; unfold foot ins owns
  iintro ⟨⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%f12, %hf12, H12⟩, ⟨%f13, %hf13, H13⟩, ⟨%f14, %hf14, H14⟩, ⟨%g15, %hf15, H15⟩, ⟨%f16, %hf16, H16⟩⟩, Hk⟩
  sl_exec (disch := first | exact h1 | exact h2 | exact h3 | exact h4 | exact h5 | exact h6 | exact h7)
  sl_step
  iapply Hk
  unfold foot owns
  isplitl [H2 H3 H4 H5 H6 H7 H8 H9 H10 H11]
  · iapply ins_back c s hf2 hf3 hf4 hf5 hf6 hf7 hf8 hf9 hf10 hf11
    iframe H2 H3 H4 H5 H6 H7 H8 H9 H10
    iexact H11
  isplitl [H12]
  · iexists _; isplitr
    swap; · iexact H12
    ipureintro
    sl_unfold_run_names
    rw [View.read_writes_eq_canon _ _ _ (cover_blk _), View.canon_unit_zero zeroOff,
      View.readCov_eq_canon_ld _ _ _ (cover_slabs _ _ _ _ _)]
    unfold supp2 sc1 sh1
    simp only [View.readAt_eq_ld, hf2, hf5, hf6, hf8, hf10, hf15, hf16, View.ld_unit_zero (S := S1x256) zeroOff, View.ld_unit_zero (S := S256x256) zeroOff, View.ld_unit_zero (S := S400x10000) zeroOff, View.ld_unit_zero (S := S10000x256) zeroOff]
  isplitl [H13]; · iapply owns_of c s.a13 f13 o13 hf13; iexact H13
  isplitl [H14]
  · iexists _; isplitr
    swap; · iexact H14
    ipureintro
    sl_unfold_run_names
    rw [View.read_writes_eq_canon _ _ _ (cover_slabs _ _ _ _ _)]
    unfold supp2 sc1 sh1
    simp only [View.readAt_eq_ld, hf2, hf5, hf6, hf8, hf10, hf15, hf16, View.ld_unit_zero (S := S1x256) zeroOff, View.ld_unit_zero (S := S256x256) zeroOff, View.ld_unit_zero (S := S400x10000) zeroOff, View.ld_unit_zero (S := S10000x256) zeroOff]
  isplitl [H15]; · iapply owns_of c scM15 g15 f15 hf15; iexact H15
  iexists _; isplitr
  swap; · iexact H16
  ipureintro
  sl_unfold_run_names
  rw [View.read_writes_eq_canon _ _ _ (cover_rows _ _), View.readCov_eq_canon_ld _ _ _ (cover_slabs _ _ _ _ _)]
  unfold stReset supp2 sc1 sh1
  simp only [View.readAt_eq_ld, hf2, hf5, hf6, hf8, hf10, hf15, hf16, View.ld_unit_zero (S := S1x256) zeroOff, View.ld_unit_zero (S := S256x256) zeroOff, View.ld_unit_zero (S := S400x10000) zeroOff, View.ld_unit_zero (S := S10000x256) zeroOff]

end Cert.KernelIdeal.Hand

end
-- ==== Proof.Run0D.lean ====
import proofs.«112434_g77017353552286_cont_9to1c4b_820_16_alg».proof.Proof.Runs0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Points (1, i), 0 < i < 24: the block goes out and its column sums are added to the statistics rows. -/
theorem run0_D (c : Dev nD) (E : Set ℕ) (i : grid0.Coords) (h1 : ¬cond0_1 i) (h2 : ¬cond0_2 i) (h3 : ¬cond0_3 i) (h4 : cond0_4 i) (h5 : ¬cond0_5 i) (h6 : cond0_6 i) (h7 : ¬cond0_7 i)
    (s : Stage) (x0 : Vec F S400x10000 .f32) (x1 : Vec F S10000x256 .f32) (x2 x3 : Vec F S256x256 .f32) (x4 x5 x6 x7 x8 x9 : Vec F S1x256 .f32)
    (o12 : Vec F S400x256 .bf16) (o13 : Vec F S2x256 .f32) (s14 f15 : Vec F S10000x256 .bf16) (st : Vec F S2x256 .f32) (K : PUnit → sProp 𝕄) :
    iprop(foot c s x0 x1 x2 x3 x4 x5 x6 x7 x8 x9 o12 o13 s14 f15 st
        ∗ (foot c s x0 x1 x2 x3 x4 x5 x6 x7 x8 x9 (k0_pay25 x0 s14) o13 s14 f15 (stAcc x0 s14 st) -∗ K ⟨⟩))
      ⊢ wp frame (wpE (defs₀ (F := F)) Variants.none c none) E (body0 i s) K := by
  unfold body0
  simp only [cc0__gcn_kern_eq_skeleton]; unfold cc0__gcn_kern_skel
  conv => arg 1; arg 1; unfold foot ins owns
  iintro ⟨⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%f12, %hf12, H12⟩, ⟨%f13, %hf13, H13⟩, ⟨%f14, %hf14, H14⟩, ⟨%g15, %hf15, H15⟩, ⟨%f16, %hf16, H16⟩⟩, Hk⟩
  sl_exec (disch := first | exact h1 | exact h2 | exact h3 | exact h4 | exact h5 | exact h6 | exact h7)
  sl_step
  iapply Hk
  unfold foot owns
  isplitl [H2 H3 H4 H5 H6 H7 H8 H9 H10 H11]
  · iapply ins_back c s hf2 hf3 hf4 hf5 hf6 hf7 hf8 hf9 hf10 hf11
    iframe H2 H3 H4 H5 H6 H7 H8 H9 H10
    iexact H11
  isplitl [H12]
  · iexists _; isplitr
    swap; · iexact H12
    ipureintro
    sl_unfold_run_names
    rw [View.read_writes_eq_canon _ _ _ (cover_blk _), View.canon_unit_zero zeroOff]
    simp only [View.readAt_eq_ld, hf2, hf14, View.ld_unit_zero (S := S400x10000) zeroOff, View.ld_unit_zero (S := S10000x256) zeroOff]
  isplitl [H13]; · iapply owns_of c s.a13 f13 o13 hf13; iexact H13
  isplitl [H14]; · iapply owns_of c scM14 f14 s14 hf14; iexact H14
  isplitl [H15]; · iapply owns_of c scM15 g15 f15 hf15; iexact H15
  iexists _; isplitr
  swap; · iexact H16
  ipureintro
  sl_unfold_run_names
  rw [View.read_writes_eq_canon _ _ _ (cover_rows _ _)]
  unfold stAcc
  simp only [View.readAt_eq_ld, hf2, hf14, hf16, View.ld_unit_zero (S := S400x10000) zeroOff, View.ld_unit_zero (S := S10000x256) zeroOff]

end Cert.KernelIdeal.Hand

end
-- ==== Proof.Run0E.lean ====
import proofs.«112434_g77017353552286_cont_9to1c4b_820_16_alg».proof.Proof.Runs0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Point (1, 24): as the points before it, and the slope and intercept rows are computed from the finished rows. -/
theorem run0_E (c : Dev nD) (E : Set ℕ) (i : grid0.Coords) (h1 : ¬cond0_1 i) (h2 : ¬cond0_2 i) (h3 : ¬cond0_3 i) (h4 : cond0_4 i) (h5 : ¬cond0_5 i) (h6 : cond0_6 i) (h7 : cond0_7 i)
    (s : Stage) (x0 : Vec F S400x10000 .f32) (x1 : Vec F S10000x256 .f32) (x2 x3 : Vec F S256x256 .f32) (x4 x5 x6 x7 x8 x9 : Vec F S1x256 .f32)
    (o12 : Vec F S400x256 .bf16) (o13 : Vec F S2x256 .f32) (s14 f15 : Vec F S10000x256 .bf16) (st : Vec F S2x256 .f32) (K : PUnit → sProp 𝕄) :
    iprop(foot c s x0 x1 x2 x3 x4 x5 x6 x7 x8 x9 o12 o13 s14 f15 st
        ∗ (foot c s x0 x1 x2 x3 x4 x5 x6 x7 x8 x9 (k0_pay25 x0 s14) (coefOf x5 x7 x9 (stAcc x0 s14 st)) s14 f15 (stAcc x0 s14 st) -∗ K ⟨⟩))
      ⊢ wp frame (wpE (defs₀ (F := F)) Variants.none c none) E (body0 i s) K := by
  unfold body0
  simp only [cc0__gcn_kern_eq_skeleton]; unfold cc0__gcn_kern_skel
  conv => arg 1; arg 1; unfold foot ins owns
  iintro ⟨⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%f12, %hf12, H12⟩, ⟨%f13, %hf13, H13⟩, ⟨%f14, %hf14, H14⟩, ⟨%g15, %hf15, H15⟩, ⟨%f16, %hf16, H16⟩⟩, Hk⟩
  sl_exec (disch := first | exact h1 | exact h2 | exact h3 | exact h4 | exact h5 | exact h6 | exact h7)
  sl_step
  iapply Hk
  unfold foot owns
  isplitl [H2 H3 H4 H5 H6 H7 H8 H9 H10 H11]
  · iapply ins_back c s hf2 hf3 hf4 hf5 hf6 hf7 hf8 hf9 hf10 hf11
    iframe H2 H3 H4 H5 H6 H7 H8 H9 H10
    iexact H11
  isplitl [H12]
  · iexists _; isplitr
    swap; · iexact H12
    ipureintro
    sl_unfold_run_names
    rw [View.read_writes_eq_canon _ _ _ (cover_blk _), View.canon_unit_zero zeroOff]
    simp only [View.readAt_eq_ld, hf2, hf7, hf9, hf11, hf14, hf16, View.ld_unit_zero (S := S1x256) zeroOff, View.ld_unit_zero (S := S400x10000) zeroOff, View.ld_unit_zero (S := S10000x256) zeroOff]
  isplitl [H13]
  · iexists _; isplitr
    swap; · iexact H13
    ipureintro
    sl_unfold_run_names
    rw [View.read_writes_eq_canon _ _ _ (cover_rows _ _), View.readCov_eq_canon_ld _ _ _ (cover_rows _ _),
      View.readCov_eq_canon_ld _ _ _ (cover_rows _ _)]
    unfold coefOf stAcc
    simp only [View.readAt_eq_ld, hf2, hf7, hf9, hf11, hf14, hf16, View.ld_unit_zero (S := S1x256) zeroOff, View.ld_unit_zero (S := S400x10000) zeroOff, View.ld_unit_zero (S := S10000x256) zeroOff]
  isplitl [H14]; · iapply owns_of c scM14 f14 s14 hf14; iexact H14
  isplitl [H15]; · iapply owns_of c scM15 g15 f15 hf15; iexact H15
  iexists _; isplitr
  swap; · iexact H16
  ipureintro
  sl_unfold_run_names
  rw [View.read_writes_eq_canon _ _ _ (cover_rows _ _)]
  unfold stAcc
  simp only [View.readAt_eq_ld, hf2, hf7, hf9, hf11, hf14, hf16, View.ld_unit_zero (S := S1x256) zeroOff, View.ld_unit_zero (S := S400x10000) zeroOff, View.ld_unit_zero (S := S10000x256) zeroOff]

end Cert.KernelIdeal.Hand

end
-- ==== Proof.Frame0.lean ====
import proofs.«112434_g77017353552286_cont_9to1c4b_820_16_alg».proof.Proof.Runs0
import proofs.«112434_g77017353552286_cont_9to1c4b_820_16_alg».proof.Proof.Run0A
import proofs.«112434_g77017353552286_cont_9to1c4b_820_16_alg».proof.Proof.Run0B
import proofs.«112434_g77017353552286_cont_9to1c4b_820_16_alg».proof.Proof.Run0C
import proofs.«112434_g77017353552286_cont_9to1c4b_820_16_alg».proof.Proof.Run0D
import proofs.«112434_g77017353552286_cont_9to1c4b_820_16_alg».proof.Proof.Run0E
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem val_lt50 (t : Fin cfg0.N) : t.val < 50 := lt_of_lt_of_eq t.isLt (show cfg0.N = 50 from N_0)

theorem pt_val (t : Fin cfg0.N) : pt t.val = t := Fin.ext (Nat.mod_eq_of_lt (val_lt50 t))
theorem pt_of_val (t : Fin cfg0.N) (n : ℕ) (h : t.val = n) : pt n = t := h ▸ pt_val t

section Contents

variable (c : Dev nD)

theorem suppAt_lt (n : ℕ) (h : n < 25) : suppAt V c n = suppA V c := by unfold suppAt; exact if_pos h
theorem suppAt_ge (n : ℕ) (h : 25 ≤ n) : suppAt V c n = suppB V c := by unfold suppAt; exact if_neg (by omega)
theorem stAt_lt (n : ℕ) (h : n < 25) : stAt V c n = stA V c n := by unfold stAt; exact if_pos h
theorem stAt_ge (n : ℕ) (h : 25 ≤ n) : stAt V c n = stB V c (n - 25) := by unfold stAt; exact if_neg (by omega)
theorem stA_zero : stA V c 0 = stReset (aAt V c 0) (suppA V c) := by unfold stA suppA; rw [stA_]
theorem stA_succ (n : ℕ) : stA V c (n + 1) = stAcc (aAt V c (n + 1)) (suppA V c) (stA V c n) := by unfold stA suppA; rw [stA_]
theorem stB_zero : stB V c 0 = stReset (aAt V c 25) (suppB V c) := by unfold stB suppB; rw [stB_]
theorem stB_succ (n : ℕ) : stB V c (n + 1) = stAcc (aAt V c (25 + (n + 1))) (suppB V c) (stB V c n) := by unfold stB suppB; rw [stB_]

end Contents

section Cases

variable (c : Dev nD) (t : Fin cfg0.N)

theorem suppAt_A (ht : t.val = 0) : suppAt V c t.val = supp1 (xB V c t) (w1B V c t) := by
  rw [suppAt_lt V c _ (by omega)]; unfold suppA; rw [pt_of_val t 0 ht]
theorem stAt_A (ht : t.val = 0) : stAt V c t.val = stReset (adjB V c t) (supp1 (xB V c t) (w1B V c t)) := by
  rw [ht, stAt_lt V c 0 (by omega), stA_zero]; unfold suppA aAt; rw [pt_of_val t 0 ht]

theorem suppAt_keep (h0 : t.val % 25 ≠ 0) : suppAt V c t.val = suppAt V c (t.val - 1) := by
  by_cases h : t.val < 25
  · rw [suppAt_lt V c _ h, suppAt_lt V c _ (by omega)]
  · rw [suppAt_ge V c _ (by omega), suppAt_ge V c _ (by omega)]
theorem stAt_acc (h0 : t.val % 25 ≠ 0) :
    stAt V c t.val = stAcc (adjB V c t) (suppAt V c (t.val - 1)) (stAt V c (t.val - 1)) := by
  have hN := val_lt50 t
  by_cases h : t.val < 25
  · obtain ⟨n, hn⟩ : ∃ n, t.val = n + 1 := ⟨t.val - 1, by omega⟩
    rw [hn, Nat.add_sub_cancel, stAt_lt V c _ (by omega), stAt_lt V c _ (by omega), suppAt_lt V c _ (by omega), stA_succ]
    unfold aAt; rw [pt_of_val t (n + 1) hn]
  · obtain ⟨n, hn⟩ : ∃ n, t.val = 25 + (n + 1) := ⟨t.val - 26, by omega⟩
    rw [hn, stAt_ge V c _ (by omega), stAt_ge V c _ (by omega), suppAt_ge V c _ (by omega),
      show 25 + (n + 1) - 25 = n + 1 from by omega, show 25 + (n + 1) - 1 - 25 = n from by omega, stB_succ]
    unfold aAt; rw [pt_of_val t (25 + (n + 1)) hn]

end Cases

section Cases2

variable (c : Dev nD) (t : Fin cfg0.N)

theorem suppB_C (ht : t.val = 25) :
    suppB V c = supp2 (b1B V c t) (g1B V c t) (be1B V c t) (stAt V c (t.val - 1)) (h1A V c) (w2B V c t) := by
  rw [ht, show 25 - 1 = 24 from rfl, stAt_lt V c _ (by omega)]; unfold suppB suppB_ stA h1A; rw [pt_of_val t 25 ht]
theorem stAt_C (ht : t.val = 25) : stAt V c t.val = stReset (adjB V c t) (suppB V c) := by
  rw [ht, stAt_ge V c 25 (by omega), show 25 - 25 = 0 from rfl, stB_zero]; unfold aAt; rw [pt_of_val t 25 ht]

theorem coefB_E (ht : t.val = 49) : coefB V c = coefOf (b2B V c t) (g2B V c t) (be2B V c t) (stAt V c t.val) := by
  rw [ht, stAt_ge V c 49 (by omega), show 49 - 25 = 24 from rfl]; unfold coefB; rw [pt_of_val t 49 ht]

theorem H1Upto_all (n : ℕ) (hn : 24 ≤ n) (f : Vec F S10000x256 .bf16) (h : H1Upto V c n f) : f = h1A V c := by
  funext y
  have hy : (y 0).val < 10000 := (y 0).isLt
  exact h y (by rw [Nat.min_eq_right (by omega)]; omega)

theorem H1Upto_keep (n : ℕ) (hn : 25 ≤ n) (f : Vec F S10000x256 .bf16) (h : H1Upto V c (n - 1) f) : H1Upto V c n f := by
  intro y hy
  apply h y
  rw [Nat.min_eq_right (by omega)] at hy ⊢
  exact hy

theorem H1Upto_step (ht : t.val < 25) (f f' : Vec F S10000x256 .bf16)
    (hprev : t.val ≠ 0 → H1Upto V c (t.val - 1) f)
    (hw : blkWritten ((grid0.coords t) 1).val (k0_pay24 (adjB V c t) (suppA V c)) f f') : H1Upto V c t.val f' := by
  rw [coord1_eq t, Nat.mod_eq_of_lt ht] at hw
  intro y hy
  rw [Nat.min_eq_left (by omega)] at hy
  by_cases hlo : 400 * t.val ≤ (y 0).val
  · rw [hw.1 y hlo (by omega)]
    have hdiv : (y 0).val / 400 = t.val := by omega
    have hmod : (y 0).val % 400 = (y 0).val - 400 * t.val := by omega
    unfold h1A h1A_ aAt suppA
    rw [show pt ((y 0).val / 400) = t from pt_of_val t _ hdiv.symm]
    congr 2
    exact Fin.ext hmod.symm
  · rw [hw.2 y (by omega)]
    have h0 : t.val ≠ 0 := by omega
    exact hprev h0 y (by rw [Nat.min_eq_left (by omega)]; omega)

end Cases2

section Windows

variable (c : Dev nD) (t : Fin cfg0.N)

theorem after0_0 : (dat0 V c).after 0 t = iblk0 V c 0 t := by dsimp only [dat0]
theorem after0_1 : (dat0 V c).after 1 t = iblk0 V c 1 t := by dsimp only [dat0]
theorem after0_2 : (dat0 V c).after 2 t = iblk0 V c 2 t := by dsimp only [dat0]
theorem after0_3 : (dat0 V c).after 3 t = iblk0 V c 3 t := by dsimp only [dat0]
theorem after0_4 : (dat0 V c).after 4 t = iblk0 V c 4 t := by dsimp only [dat0]
theorem after0_5 : (dat0 V c).after 5 t = iblk0 V c 5 t := by dsimp only [dat0]
theorem after0_6 : (dat0 V c).after 6 t = iblk0 V c 6 t := by dsimp only [dat0]
theorem after0_7 : (dat0 V c).after 7 t = iblk0 V c 7 t := by dsimp only [dat0]
theorem after0_8 : (dat0 V c).after 8 t = iblk0 V c 8 t := by dsimp only [dat0]
theorem after0_9 : (dat0 V c).after 9 t = iblk0 V c 9 t := by dsimp only [dat0]

theorem before0_0 (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
theorem before0_8 (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)
theorem before0_9 (d) : (dat0 V c).before 9 t d = iblk0 V c 9 t :=
  ((dat0 V c).before_in_eq_fetched 9 rfl (fun _ => rfl) (fun _ _ _ => rfl) (fun t => by rw [after0_9]; unfold Dat.blockOf iblk0; rw [A_eq0]; try rfl) t d).trans
    (by unfold Dat.fetched Dat.blockOf iblk0; rw [A_eq0]; try rfl)

end Windows

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM14 fullShare (suppAt V c n)
      ∗ (∃ f, owns (c : Thread nD τ) scM15 fullShare f ∗ ⌜H1Upto V c n f⌝)
      ∗ owns (c : Thread nD τ) scM16 fullShare (stAt V c n)
      ∗ others0 c ∗ (∃ r, prngReg c r)) := rfl

theorem PhiS0_pos (c : Dev nD) (n : ℕ) (h : n ≤ cfg0.N) (hz : n ≠ 0) :
    PhiS0 V c n h = iprop(owns (c : Thread nD τ) scM14 fullShare (suppAt V c (n - 1))
      ∗ (∃ f, owns (c : Thread nD τ) scM15 fullShare f ∗ ⌜H1Upto V c (n - 1) f⌝)
      ∗ owns (c : Thread nD τ) scM16 fullShare (stAt V c (n - 1))
      ∗ others0 c ∗ (∃ r, prngReg c r)) := by
  cases n with
  | zero => exact absurd rfl hz
  | succ n => rfl

theorem Phi0_castSucc (c : Dev nD) (t : Fin cfg0.N) :
    (dat0 V c).Φ t.castSucc = PhiS0 V c t.val (Nat.le_of_lt t.isLt) := by
  dsimp only [dat0]; simp only [Fin.coe_castSucc]

def bodyPre0 (c : Dev nD) (t : Fin cfg0.N) : sProp 𝕄 :=
  iprop((dat0 V c).Φ t.castSucc ∗ (dat0 V c).owesAt () t.castSucc
    ∗ (∃ d, owns (c : Thread nD τ) (stage0 t).a2 fullShare ((dat0 V c).before 0 t d))
    ∗ (∃ d, owns (c : Thread nD τ) (stage0 t).a3 fullShare ((dat0 V c).before 1 t d))
    ∗ (∃ d, owns (c : Thread nD τ) (stage0 t).a4 fullShare ((dat0 V c).before 2 t d))
    ∗ (∃ d, owns (c : Thread nD τ) (stage0 t).a5 fullShare ((dat0 V c).before 3 t d))
    ∗ (∃ d, owns (c : Thread nD τ) (stage0 t).a6 fullShare ((dat0 V c).before 4 t d))
    ∗ (∃ d, owns (c : Thread nD τ) (stage0 t).a7 fullShare ((dat0 V c).before 5 t d))
    ∗ (∃ d, owns (c : Thread nD τ) (stage0 t).a8 fullShare ((dat0 V c).before 6 t d))
    ∗ (∃ d, owns (c : Thread nD τ) (stage0 t).a9 fullShare ((dat0 V c).before 7 t d))
    ∗ (∃ d, owns (c : Thread nD τ) (stage0 t).a10 fullShare ((dat0 V c).before 8 t d))
    ∗ (∃ d, owns (c : Thread nD τ) (stage0 t).a11 fullShare ((dat0 V c).before 9 t d))
    ∗ (∃ d, owns (c : Thread nD τ) (stage0 t).a12 fullShare ((dat0 V c).before 10 t d))
    ∗ (∃ d, owns (c : Thread nD τ) (stage0 t).a13 fullShare ((dat0 V c).before 11 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

theorem leaves0_0 (c : Dev nD) (t : Fin cfg0.N) :
    (dat0 V c).leavesExact 0 t = owns (c : Thread nD τ) (stage0 t).a2 fullShare (iblk0 V c 0 t) := by
  unfold Dat.leavesExact; rw [liveAt0 0 (by decide) t, after0_0]
theorem leaves0_1 (c : Dev nD) (t : Fin cfg0.N) :
    (dat0 V c).leavesExact 1 t = owns (c : Thread nD τ) (stage0 t).a3 fullShare (iblk0 V c 1 t) := by
  unfold Dat.leavesExact; rw [liveAt0 1 (by decide) t, after0_1]
theorem leaves0_2 (c : Dev nD) (t : Fin cfg0.N) :
    (dat0 V c).leavesExact 2 t = owns (c : Thread nD τ) (stage0 t).a4 fullShare (iblk0 V c 2 t) := by
  unfold Dat.leavesExact; rw [liveAt0 2 (by decide) t, after0_2]
theorem leaves0_3 (c : Dev nD) (t : Fin cfg0.N) :
    (dat0 V c).leavesExact 3 t = owns (c : Thread nD τ) (stage0 t).a5 fullShare (iblk0 V c 3 t) := by
  unfold Dat.leavesExact; rw [liveAt0 3 (by decide) t, after0_3]
theorem leaves0_4 (c : Dev nD) (t : Fin cfg0.N) :
    (dat0 V c).leavesExact 4 t = owns (c : Thread nD τ) (stage0 t).a6 fullShare (iblk0 V c 4 t) := by
  unfold Dat.leavesExact; rw [liveAt0 4 (by decide) t, after0_4]
theorem leaves0_5 (c : Dev nD) (t : Fin cfg0.N) :
    (dat0 V c).leavesExact 5 t = owns (c : Thread nD τ) (stage0 t).a7 fullShare (iblk0 V c 5 t) := by
  unfold Dat.leavesExact; rw [liveAt0 5 (by decide) t, after0_5]
theorem leaves0_6 (c : Dev nD) (t : Fin cfg0.N) :
    (dat0 V c).leavesExact 6 t = owns (c : Thread nD τ) (stage0 t).a8 fullShare (iblk0 V c 6 t) := by
  unfold Dat.leavesExact; rw [liveAt0 6 (by decide) t, after0_6]
theorem leaves0_7 (c : Dev nD) (t : Fin cfg0.N) :
    (dat0 V c).leavesExact 7 t = owns (c : Thread nD τ) (stage0 t).a9 fullShare (iblk0 V c 7 t) := by
  unfold Dat.leavesExact; rw [liveAt0 7 (by decide) t, after0_7]
theorem leaves0_8 (c : Dev nD) (t : Fin cfg0.N) :
    (dat0 V c).leavesExact 8 t = owns (c : Thread nD τ) (stage0 t).a10 fullShare (iblk0 V c 8 t) := by
  unfold Dat.leavesExact; rw [liveAt0 8 (by decide) t, after0_8]
theorem leaves0_9 (c : Dev nD) (t : Fin cfg0.N) :
    (dat0 V c).leavesExact 9 t = owns (c : Thread nD τ) (stage0 t).a11 fullShare (iblk0 V c 9 t) := by
  unfold Dat.leavesExact; rw [liveAt0 9 (by decide) t, after0_9]

theorem leaves0_10 (c : Dev nD) (t : Fin cfg0.N) (h : cond0_4 (grid0.coords t)) :
    (dat0 V c).leavesExact 10 t = owns (c : Thread nD τ) (stage0 t).a12 fullShare (h2Blk V c t) := by
  unfold Dat.leavesExact; rw [liveAt0_10 t h, after0_10]

theorem leaves0_11 (c : Dev nD) (t : Fin cfg0.N) (h : cond0_7 (grid0.coords t)) :
    (dat0 V c).leavesExact 11 t = owns (c : Thread nD τ) (stage0 t).a13 fullShare (coefB V c) := by
  unfold Dat.leavesExact; rw [liveAt0_11 t h, after0_11]

/-- The body at any point: the point's number selects one of five control cases. -/
theorem sound_body0 (c : Dev nD) (t : Fin cfg0.N) :
    bodyPre0 V c t ⊢ wp frame (wpE (defs₀ (F := F)) Variants.none c none) Set.univ (bodyAt0 t) (fun _ => bodyPost0 V c t) := by
  have hN := val_lt50 t
  obtain ⟨c1, c2, c3, c4, c5, c6, c7⟩ := hcond0 t
  unfold bodyPre0 bodyPost0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5, leaves0_6, leaves0_7, leaves0_8, leaves0_9]
  rw [Phi0_castSucc]
  by_cases ht : t.val = 0
  · have h1 := c1.mpr (by omega)
    have h2 := c2.not.mpr (by omega)
    have h3 := c3.mpr (by omega)
    have h4 := c4.not.mpr (by omega)
    have h5 := c5.mpr (by omega)
    have h6 := c6.not.mpr (by omega)
    have h7 := c7.not.mpr (by omega)
    rw [PhiS0_zero V c _ _ ht, PhiA0_eq]
    rw [Dat.leavesExact_idle (dat0 V c) 10 t (idleAt0_10 t h4) (noFlush0_10 t h4),
      Dat.leavesExact_idle (dat0 V c) 11 t (idleAt0_11 t h7) (noFlush0_11 t h7)]
    rw [suppAt_A V c t ht, stAt_A V c t ht]
    iintro ⟨⟨⟨⟨%d14, H14⟩, ⟨%f15, H15⟩, ⟨%d16, H16⟩, HO⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run0_A c Set.univ (grid0.coords t) h1 h2 h3 h4 h5 h6 h7 (stage0 t)
      (adjB V c t) (xB V c t) (w1B V c t) (w2B V c t) (b1B V c t) (b2B V c t) (g1B V c t) (g2B V c t) (be1B V c t) (be2B V c t)
      ((dat0 V c).before 10 t d10) ((dat0 V c).before 11 t d11) d14 f15 d16 _)
    unfold foot ins
    iframe H0 H1 H2 H3 H4 H5 H6 H7 H8 H9 H10 H11 H14 H15 H16
    iintro ⟨%f', %hw, ⟨H0, H1, H2, H3, H4, H5, H6, H7, H8, H9⟩, H10, H11, H14, H15, H16⟩
    iframe H14 H16 HO HR Ho H0 H1 H2 H3 H4 H5 H6 H7 H8 H9
    isplitl [H15]
    · iexists f'; iframe H15
      ipureintro
      refine H1Upto_step V c t (by omega) f15 f' (fun h => absurd ht h) ?_
      unfold suppA; rw [pt_of_val t 0 ht]; exact hw
    isplitl [H10]; · iexists d10; iexact H10
    iexists d11; iexact H11
  rw [PhiS0_pos V c _ _ ht]
  iintro ⟨⟨H14, ⟨%f15, H15, %hf⟩, H16, HO, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  by_cases h25 : t.val < 25
  · have h1 := c1.not.mpr (by omega)
    have h2 := c2.not.mpr (by omega)
    have h3 := c3.mpr (by omega)
    have h4 := c4.not.mpr (by omega)
    have h5 := c5.not.mpr (by omega)
    have h6 := c6.mpr (by omega)
    have h7 := c7.not.mpr (by omega)
    rw [Dat.leavesExact_idle (dat0 V c) 10 t (idleAt0_10 t h4) (noFlush0_10 t h4),
      Dat.leavesExact_idle (dat0 V c) 11 t (idleAt0_11 t h7) (noFlush0_11 t h7)]
    rw [suppAt_keep V c t (by omega), stAt_acc V c t (by omega)]
    iapply (run0_B c Set.univ (grid0.coords t) h1 h2 h3 h4 h5 h6 h7 (stage0 t)
      (adjB V c t) (xB V c t) (w1B V c t) (w2B V c t) (b1B V c t) (b2B V c t) (g1B V c t) (g2B V c t) (be1B V c t) (be2B V c t)
      ((dat0 V c).before 10 t d10) ((dat0 V c).before 11 t d11) (suppAt V c (t.val - 1)) f15 (stAt V c (t.val - 1)) _)
    unfold foot ins
    iframe H0 H1 H2 H3 H4 H5 H6 H7 H8 H9 H10 H11 H14 H15 H16
    iintro ⟨%f', %hw, ⟨H0, H1, H2, H3, H4, H5, H6, H7, H8, H9⟩, H10, H11, H14, H15, H16⟩
    iframe H14 H16 HO HR Ho H0 H1 H2 H3 H4 H5 H6 H7 H8 H9
    isplitl [H15]
    · iexists f'; iframe H15
      ipureintro
      refine H1Upto_step V c t h25 f15 f' (fun _ => hf) ?_
      rw [← suppAt_lt V c (t.val - 1) (by omega)]; exact hw
    isplitl [H10]; · iexists d10; iexact H10
    iexists d11; iexact H11
  replace ht : t.val ≠ 0 := ht
  by_cases ht : t.val = 25
  · have h1 := c1.not.mpr (by omega)
    have h2 := c2.mpr (by omega)
    have h3 := c3.not.mpr (by omega)
    have h4 := c4.mpr (by omega)
    have h5 := c5.mpr (by omega)
    have h6 := c6.not.mpr (by omega)
    have h7 := c7.not.mpr (by omega)
    rw [leaves0_10 V c t h4,
      Dat.leavesExact_idle (dat0 V c) 11 t (idleAt0_11 t h7) (noFlush0_11 t h7)]
    rw [suppAt_ge V c t.val (by omega), stAt_C V c t ht]; unfold h2Blk; rw [suppB_C V c t ht]
    obtain rfl : f15 = h1A V c := H1Upto_all V c (t.val - 1) (by omega) f15 hf
    iapply (run0_C c Set.univ (grid0.coords t) h1 h2 h3 h4 h5 h6 h7 (stage0 t)
      (adjB V c t) (xB V c t) (w1B V c t) (w2B V c t) (b1B V c t) (b2B V c t) (g1B V c t) (g2B V c t) (be1B V c t) (be2B V c t)
      ((dat0 V c).before 10 t d10) ((dat0 V c).before 11 t d11) (suppAt V c (t.val - 1)) (h1A V c) (stAt V c (t.val - 1)) _)
    unfold foot ins
    iframe H0 H1 H2 H3 H4 H5 H6 H7 H8 H9 H10 H11 H14 H15 H16
    iintro ⟨⟨H0, H1, H2, H3, H4, H5, H6, H7, H8, H9⟩, H10, H11, H14, H15, H16⟩
    iframe H14 H16 HO HR Ho H0 H1 H2 H3 H4 H5 H6 H7 H8 H9 H10
    isplitl [H15]
    · iexists (h1A V c); iframe H15
      ipureintro
      exact H1Upto_keep V c t.val (by omega) _ hf
    iexists d11; iexact H11
  by_cases h49 : t.val < 49
  · replace h25 : 25 < t.val := by omega
    have h1 := c1.not.mpr (by omega)
    have h2 := c2.not.mpr (by omega)
    have h3 := c3.not.mpr (by omega)
    have h4 := c4.mpr (by omega)
    have h5 := c5.not.mpr (by omega)
    have h6 := c6.mpr (by omega)
    have h7 := c7.not.mpr (by omega)
    rw [leaves0_10 V c t h4,
      Dat.leavesExact_idle (dat0 V c) 11 t (idleAt0_11 t h7) (noFlush0_11 t h7)]
    rw [suppAt_keep V c t (by omega), stAt_acc V c t (by omega)]; unfold h2Blk; rw [← suppAt_ge V c (t.val - 1) (by omega)]
    iapply (run0_D c Set.univ (grid0.coords t) h1 h2 h3 h4 h5 h6 h7 (stage0 t)
      (adjB V c t) (xB V c t) (w1B V c t) (w2B V c t) (b1B V c t) (b2B V c t) (g1B V c t) (g2B V c t) (be1B V c t) (be2B V c t)
      ((dat0 V c).before 10 t d10) ((dat0 V c).before 11 t d11) (suppAt V c (t.val - 1)) f15 (stAt V c (t.val - 1)) _)
    unfold foot ins
    iframe H0 H1 H2 H3 H4 H5 H6 H7 H8 H9 H10 H11 H14 H15 H16
    iintro ⟨⟨H0, H1, H2, H3, H4, H5, H6, H7, H8, H9⟩, H10, H11, H14, H15, H16⟩
    iframe H14 H16 HO HR Ho H0 H1 H2 H3 H4 H5 H6 H7 H8 H9 H10
    isplitl [H15]
    · iexists f15; iframe H15
      ipureintro
      exact H1Upto_keep V c t.val (by omega) _ hf
    iexists d11; iexact H11
  replace ht : t.val = 49 := by omega
  have h1 := c1.not.mpr (by omega)
  have h2 := c2.not.mpr (by omega)
  have h3 := c3.not.mpr (by omega)
  have h4 := c4.mpr (by omega)
  have h5 := c5.not.mpr (by omega)
  have h6 := c6.mpr (by omega)
  have h7 := c7.mpr (by omega)
  rw [leaves0_10 V c t h4, leaves0_11 V c t h7]
  rw [coefB_E V c t ht, suppAt_keep V c t (by omega), stAt_acc V c t (by omega)]; unfold h2Blk; rw [← suppAt_ge V c (t.val - 1) (by omega)]
  iapply (run0_E c Set.univ (grid0.coords t) h1 h2 h3 h4 h5 h6 h7 (stage0 t)
    (adjB V c t) (xB V c t) (w1B V c t) (w2B V c t) (b1B V c t) (b2B V c t) (g1B V c t) (g2B V c t) (be1B V c t) (be2B V c t)
    ((dat0 V c).before 10 t d10) ((dat0 V c).before 11 t d11) (suppAt V c (t.val - 1)) f15 (stAt V c (t.val - 1)) _)
  unfold foot ins
  iframe H0 H1 H2 H3 H4 H5 H6 H7 H8 H9 H10 H11 H14 H15 H16
  iintro ⟨⟨H0, H1, H2, H3, H4, H5, H6, H7, H8, H9⟩, H10, H11, H14, H15, H16⟩
  iframe H14 H16 HO HR Ho H0 H1 H2 H3 H4 H5 H6 H7 H8 H9 H10 H11
  iexists f15; iframe H15
  ipureintro
  exact H1Upto_keep V c t.val (by omega) _ hf

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 50 := N_0; omega), PhiA0_eq]
  iintro ⟨H14, ⟨%f, H15, %hf⟩, H16, HO, HR⟩
  isplitr [HR]
  · isplitl [H14]; · iexists _; iexact H14
    isplitl [H15]; · iexists _; iexact H15
    isplitl [H16]; · iexists _; iexact H16
    iexact HO
  · iexact HR

end Cert.KernelIdeal.Hand

end
-- ==== Proof.Reg1.lean ====
import proofs.«112434_g77017353552286_cont_9to1c4b_820_16_alg».proof.Proof.KData
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem cover1_2 (p0 : Vec F S2000x256 .f32) (y : S2000x256.Idx) :
    ∃ pc ∈ ([⟨r1full, p0⟩] : List (View.Piece (Elt F) S2000x256 .f32)), y ∈ pc.1.set :=
  View.cover_of_tiled [⟨r1full, p0⟩] S2000x256.size (by rfl) y

set_option maxHeartbeats 1000000 in

theorem sound_kernel1 (c : Dev nD) (E : Set ℕ) (i : grid1.Coords)
    (arg1 : Memref sig .tc .vmem S2000x256 .bf16) (harg1 : arg1.IsWhole)
    (arg2 : Memref sig .tc .vmem S2x256 .f32) (harg2 : arg2.IsWhole)
    (arg3 : Memref sig .tc .vmem S2000x256 .f32) (harg3 : arg3.IsWhole)
    (x0 : Vec F S2000x256 .bf16) (x1 : Vec F S2x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__tanh_kern i arg1 harg1 arg2 harg2 arg3 harg3) K := by
  simp only [cc1__tanh_kern_eq_skeleton]; unfold cc1__tanh_kern_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  iframe H0 H1
  isplitl [H2]; · iexists _; iexact H2
  iintro ⟨H0, H1, H2⟩
  iframe HΦ Ho H0 H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KRun.lean ====
import proofs.«112434_g77017353552286_cont_9to1c4b_820_16_alg».proof.Proof.Frame0
import proofs.«112434_g77017353552286_cont_9to1c4b_820_16_alg».proof.Proof.Reg1
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

theorem W1_of (c : Dev nD) (b : Ref sig .tc) (hb : b ∉ ([main_v0, main_v1, main_v2, main_v3, main_v4, main_v5] : List (Ref sig .tc))) :
    W1 m c (Proc.devRef .tc b) = W0 m c (Proc.devRef .tc b) :=
  StableHlo.after_of_forall_not_mem (b := Proc.devRef .tc b) _ _ (List.forall_iff_forall_mem.mp (by
    simp only [hostOps0, List.Forall, StableHlo.reshape_writes, Finset.mem_singleton]
    refine ⟨?_, ?_, ?_, ?_, ?_, ?_⟩ <;>
      exact StableHlo.devRef_ne_of_ne (fun e => hb (by subst e; simp))))

theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

/-- A buffer that no host operation writes and no region writes back ends as launched. -/
theorem W3_arg (c : Dev nD) (b : Ref sig .tc) (h3 : ∀ w, Pipeline.arrRef spec1 w ≠ b)
    (h2 : (∀ w, Pipeline.arrRef spec0 w ≠ b) ∨ ∃ w, (cfg0.win w).isOut = false ∧ Pipeline.arrRef spec0 w = b)
    (h1 : b ∉ ([main_v0, main_v1, main_v2, main_v3, main_v4, main_v5] : List (Ref sig .tc))) :
    W3 m c (Proc.devRef .tc b) = m ((c : Thread nD τ).loc b) :=
  (W3_of_ne m c b h3).trans <| (h2.elim (W2_of_ne m c b) fun ⟨w, hw, e⟩ => by subst e; exact W2_in m c w hw).trans <|
    (W1_of m c b h1).trans rfl

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (V1 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in

theorem run_main : θ_run defs (onTc (τ := τ) (main (F := F))) ⟨m, fun _ => 0, ρ⟩ (fun r => ∀ c : Dev nD,
      r.2.mem ((c.tc : Thread nD τ).loc main_v7) = W3 m c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨h c _ (mem_uc main_v7 (by decide)),
        (h c _ (mem_uc main_arg0 (by decide))).trans (W3_arg m c main_arg0 (by decide) (by decide) (by decide)),
        (h c _ (mem_uc main_arg1 (by decide))).trans (W3_arg m c main_arg1 (by decide) (by decide) (by decide)),
        (h c _ (mem_uc main_arg2 (by decide))).trans (W3_arg m c main_arg2 (by decide) (by decide) (by decide)),
        (h c _ (mem_uc main_arg3 (by decide))).trans (W3_arg m c main_arg3 (by decide) (by decide) (by decide)),
        (h c _ (mem_uc main_arg4 (by decide))).trans (W3_arg m c main_arg4 (by decide) (by decide) (by decide)),
        (h c _ (mem_uc main_arg5 (by decide))).trans (W3_arg m c main_arg5 (by decide) (by decide) (by decide)),
        (h c _ (mem_uc main_arg6 (by decide))).trans (W3_arg m c main_arg6 (by decide) (by decide) (by decide)),
        (h c _ (mem_uc main_arg7 (by decide))).trans (W3_arg m c main_arg7 (by decide) (by decide) (by decide)),
        (h c _ (mem_uc main_arg8 (by decide))).trans (W3_arg m c main_arg8 (by decide) (by decide) (by decide)),
        (h c _ (mem_uc main_arg9 (by decide))).trans (W3_arg m c main_arg9 (by decide) (by decide) (by decide))⟩)

end Cert.KernelIdeal.Hand

end
-- ==== Proof.Spec.lean ====
import Idealize.ShloMosaic.PureOps.Ideal
import Idealize.ShloMosaic.Lib.ValueIdx
import Mathlib.Algebra.BigOperators.Group.Finset.Basic

noncomputable section

namespace Cert.Spec

open Idealize.ShloMosaic

def cN : EReal := ((10000 : ℝ) : EReal)

def eps : EReal := Ideal.ofBits .f32 0x3727C5AC#32

def mm {n k m : ℕ} (A : Fin n → Fin k → EReal) (B : Fin k → Fin m → EReal) : Fin n → Fin m → EReal :=
  fun i j => ∑ l, A i l * B l j

def raw (adj : Fin 10000 → Fin 10000 → EReal) (X : Fin 10000 → Fin 256 → EReal) (W : Fin 256 → Fin 256 → EReal) :
    Fin 10000 → Fin 256 → EReal :=
  mm adj (mm X W)

def mean (h : Fin 10000 → Fin 256 → EReal) (j : Fin 256) : EReal := Ideal.div (∑ i, h i j) cN

def var (h : Fin 10000 → Fin 256 → EReal) (j : Fin 256) : EReal :=
  Ideal.div (∑ i, (h i j - mean h j) * (h i j - mean h j)) cN

def bnRef (h : Fin 10000 → Fin 256 → EReal) (γ β : Fin 256 → EReal) : Fin 10000 → Fin 256 → EReal :=
  fun i j => Ideal.div (h i j - mean h j) (Ideal.sqrt (var h j + eps)) * γ j + β j

def layerRef (adj : Fin 10000 → Fin 10000 → EReal) (X : Fin 10000 → Fin 256 → EReal) (W : Fin 256 → Fin 256 → EReal)
    (b γ β : Fin 256 → EReal) : Fin 10000 → Fin 256 → EReal :=
  bnRef (fun i j => raw adj X W i j + b j) γ β

def outRef (X : Fin 10000 → Fin 256 → EReal) (adj : Fin 10000 → Fin 10000 → EReal)
    (W1 : Fin 256 → Fin 256 → EReal) (b1 g1 be1 : Fin 256 → EReal)
    (W2 : Fin 256 → Fin 256 → EReal) (b2 g2 be2 : Fin 256 → EReal) : Fin 10000 → Fin 256 → EReal :=
  fun i j => Ideal.tanh (layerRef adj (layerRef adj X W1 b1 g1 be1) W2 b2 g2 be2 i j)

def cs (hr : Fin 10000 → Fin 256 → EReal) (j : Fin 256) : EReal := ∑ i, hr i j

def css (hr : Fin 10000 → Fin 256 → EReal) (j : Fin 256) : EReal := ∑ i, hr i j * hr i j

def muK (hr : Fin 10000 → Fin 256 → EReal) (b : Fin 256 → EReal) (j : Fin 256) : EReal :=
  Ideal.div (cs hr j) cN + b j

def ex2K (hr : Fin 10000 → Fin 256 → EReal) (b : Fin 256 → EReal) (j : Fin 256) : EReal :=
  Ideal.div (css hr j + ((2 : ℝ) : EReal) * b j * cs hr j) cN + b j * b j

def varK (hr : Fin 10000 → Fin 256 → EReal) (b : Fin 256 → EReal) (j : Fin 256) : EReal :=
  ex2K hr b j - muK hr b j * muK hr b j

def scK (hr : Fin 10000 → Fin 256 → EReal) (b γ : Fin 256 → EReal) (j : Fin 256) : EReal :=
  γ j * Ideal.rsqrt (varK hr b j + eps)

def shK (hr : Fin 10000 → Fin 256 → EReal) (b γ β : Fin 256 → EReal) (j : Fin 256) : EReal :=
  (b j - muK hr b j) * scK hr b γ j + β j

def bnKer (hr : Fin 10000 → Fin 256 → EReal) (b γ β : Fin 256 → EReal) : Fin 10000 → Fin 256 → EReal :=
  fun i j => hr i j * scK hr b γ j + shK hr b γ β j

def h1Ker (X : Fin 10000 → Fin 256 → EReal) (adj : Fin 10000 → Fin 10000 → EReal)
    (W1 : Fin 256 → Fin 256 → EReal) (b1 g1 be1 : Fin 256 → EReal) : Fin 10000 → Fin 256 → EReal :=
  bnKer (raw adj X W1) b1 g1 be1

def outKer (X : Fin 10000 → Fin 256 → EReal) (adj : Fin 10000 → Fin 10000 → EReal)
    (W1 : Fin 256 → Fin 256 → EReal) (b1 g1 be1 : Fin 256 → EReal)
    (W2 : Fin 256 → Fin 256 → EReal) (b2 g2 be2 : Fin 256 → EReal) : Fin 10000 → Fin 256 → EReal :=
  fun i j => Ideal.tanh (bnKer (raw adj (h1Ker X adj W1 b1 g1 be1) W2) b2 g2 be2 i j)

abbrev m2 {n0 n1 : ℕ} (a : (⟨2, ![n0, n1]⟩ : Shape).Idx → EReal) : Fin n0 → Fin n1 → EReal :=
  fun i j => a (ValueIdx.ix2 i j)

abbrev m1 {n : ℕ} (a : (⟨1, ![n]⟩ : Shape).Idx → EReal) : Fin n → EReal :=
  fun j => a (ValueIdx.ix1 j)

abbrev a2 {n0 n1 : ℕ} (M : Fin n0 → Fin n1 → EReal) : (⟨2, ![n0, n1]⟩ : Shape).Idx → EReal :=
  fun y => M (y 0) (y 1)

def Real2 {n m : ℕ} (A : Fin n → Fin m → EReal) : Prop := ∀ i j, ∃ r : ℝ, A i j = (r : EReal)

def Real1 {n : ℕ} (a : Fin n → EReal) : Prop := ∀ j, ∃ r : ℝ, a j = (r : EReal)

end Cert.Spec

end
-- ==== Proof.KPay.lean ====
import proofs.«112434_g77017353552286_cont_9to1c4b_820_16_alg».proof.Proof.Gen.KernelIdeal.Skeleton
import proofs.«112434_g77017353552286_cont_9to1c4b_820_16_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Tactic.NormNum

open scoped BigOperators

noncomputable section

namespace Cert.KernelIdeal.Hand

open Idealize.ShloMosaic Idealize.ShloMosaic.ValueIdx Cert.KernelIdeal Cert.KernelIdeal.Gen

theorem word_N : Ideal.ofBits .f32 0x461C4000#32 = Cert.Spec.cN := by
  unfold Cert.Spec.cN
  simp [Ideal.ofBits, Ideal.ieee]
  rw [← EReal.coe_mul]
  exact congrArg Real.toEReal (by norm_num)

theorem word_two : Ideal.ofBits .f32 0x40000000#32 = ((2 : ℝ) : EReal) := by
  simp [Ideal.ofBits, Ideal.ieee]
  rw [← EReal.coe_mul]
  exact congrArg Real.toEReal (by norm_num)

def scRow (cs css b g : EReal) : EReal :=
  g * Ideal.rsqrt ((Ideal.div (css + ((2 : ℝ) : EReal) * b * cs) Cert.Spec.cN + b * b
    - (Ideal.div cs Cert.Spec.cN + b) * (Ideal.div cs Cert.Spec.cN + b)) + Cert.Spec.eps)

def shRow (cs css b g be : EReal) : EReal :=
  (b - (Ideal.div cs Cert.Spec.cN + b)) * scRow cs css b g + be

theorem scK_eq (hr : Fin 10000 → Fin 256 → EReal) (b γ : Fin 256 → EReal) (j : Fin 256) :
    Cert.Spec.scK hr b γ j = scRow (Cert.Spec.cs hr j) (Cert.Spec.css hr j) (b j) (γ j) := rfl

theorem shK_eq (hr : Fin 10000 → Fin 256 → EReal) (b γ β : Fin 256 → EReal) (j : Fin 256) :
    Cert.Spec.shK hr b γ β j = shRow (Cert.Spec.cs hr j) (Cert.Spec.css hr j) (b j) (γ j) (β j) := rfl

theorem bcast_row (v : FVec Ideal S1x256 .f32) (r : Fin 2000) (k : Fin 256) :
    broadcastTo S2000x256 v broadcasts_S1x256_S2000x256 (ix2 r k) = v (ix2 (0 : Fin 1) k) :=
  broadcastTo_apply v broadcasts_S1x256_S2000x256 (ix2 r k) (ix2 (0 : Fin 1) k) fun a => by
    match a with
    | ⟨0, _⟩ => rfl
    | ⟨1, _⟩ => rfl

theorem row_of_vec (v : FVec Ideal S256 .f32) (j : Fin 256) :
    shapeCast S1x256 v shapeCasts_S256_S1x256 (ix2 (0 : Fin 1) j) = v (ix1 j) := by
  refine (shapeCast_addUnit_apply ![256] v shapeCasts_S256_S1x256 (ix2 (0 : Fin 1) j)).trans ?_
  refine congrArg v (funext fun a => ?_)
  match a with
  | ⟨0, _⟩ => rfl

theorem colsum_apply (v : FVec Ideal S400x256 .f32) (h : S400x256.Reduces [0] S256) (hφ : FKind.Formats .f32)
    (hacc : (0x00000000#32 : BitVec 32) = 0x00000000#32) (j : Fin 256) :
    multiReduction (F := Ideal) .add [0] S256 v 0x00000000#32 h hφ hacc (ix1 j) = ∑ r : Fin 400, v (ix2 r j) := by
  refine (Ideal.multiReduction_add_single v 0x00000000#32 h hφ hacc (ix1 j)).trans ?_
  refine Finset.sum_congr rfl fun r _ => congrArg v (funext fun a => Fin.ext ?_)
  match a with
  | ⟨0, _⟩ => rfl
  | ⟨1, _⟩ => rfl

theorem lhs_mm2000_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

theorem lhs_mm2000_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q

theorem rhs_mm2000_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q

theorem rhs_mm2000_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

theorem mm2000_apply {φ₁ φ₂ : FTy} (x : FVec Ideal S2000x256 φ₁) (w : FVec Ideal S256x256 φ₂) (r : Fin 2000) (j : Fin 256) :
    matmul dot_S2000x256_S256x256_S2000x256_1_0_0_1_n_n none x w (constant (F := Ideal) S2000x256 .f32 0x00000000#32) (ix2 r j)
      = ∑ k : Fin 256, x (ix2 r k) * w (ix2 k j) := by
  simp only [matmul]
  rw [Ideal.matmul_constant_zero_apply,
    ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 r j)
      ((contrEquiv1 dot_S2000x256_S256x256_S2000x256_1_0_0_1_n_n 256 rfl rfl).symm k) = ix2 r k :=
    funext fun a => Fin.ext (by
      match a with
      | ⟨0, _⟩ => exact lhs_mm2000_0 _ _
      | ⟨1, _⟩ => exact (lhs_mm2000_1 _ _).trans hk)
  have er : dot_S2000x256_S256x256_S2000x256_1_0_0_1_n_n.rhsIdx (ix2 r j)
      ((contrEquiv1 dot_S2000x256_S256x256_S2000x256_1_0_0_1_n_n 256 rfl rfl).symm k) = ix2 k j :=
    funext fun a => Fin.ext (by
      match a with
      | ⟨0, _⟩ => exact (rhs_mm2000_0 _ _).trans hk
      | ⟨1, _⟩ => exact rhs_mm2000_1 _ _)
  rw [el, er]

theorem lhs_mm400_0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide),
    dif_pos (show (0 : Fin S400x10000.rank) ∈ dot_S400x10000_S10000x256_S400x256_1_0_0_1_n_n.lhsNonContracting by decide)]
  rfl

theorem lhs_mm400_1 (i : S400x256.Idx) (q : dot_S400x10000_S10000x256_S400x256_1_0_0_1_n_n.contr.Idx) :
    (dot_S400x10000_S10000x256_S400x256_1_0_0_1_n_n.lhsIdx i q 1).val = (q ⟨0, by decide⟩).val :=
  dot_S400x10000_S10000x256_S400x256_1_0_0_1_n_n.lhsIdx_val_of_single rfl i q

theorem rhs_mm400_0 (i : S400x256.Idx) (q : dot_S400x10000_S10000x256_S400x256_1_0_0_1_n_n.contr.Idx) :
    (dot_S400x10000_S10000x256_S400x256_1_0_0_1_n_n.rhsIdx i q 0).val = (q ⟨0, by decide⟩).val :=
  dot_S400x10000_S10000x256_S400x256_1_0_0_1_n_n.rhsIdx_val_of_single rfl i q

theorem rhs_mm400_1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide),
    dif_pos (show (1 : Fin S10000x256.rank) ∈ dot_S400x10000_S10000x256_S400x256_1_0_0_1_n_n.rhsNonContracting by decide)]
  rfl

theorem mm400_apply {φ₁ φ₂ : FTy} (x : FVec Ideal S400x10000 φ₁) (w : FVec Ideal S10000x256 φ₂) (r : Fin 400) (j : Fin 256) :
    matmul dot_S400x10000_S10000x256_S400x256_1_0_0_1_n_n none x w (constant (F := Ideal) S400x256 .f32 0x00000000#32) (ix2 r j)
      = ∑ l : Fin 10000, x (ix2 r l) * w (ix2 l j) := by
  simp only [matmul]
  rw [Ideal.matmul_constant_zero_apply,
    ← Equiv.sum_comp (contrEquiv1 dot_S400x10000_S10000x256_S400x256_1_0_0_1_n_n 10000 rfl rfl).symm]
  refine Finset.sum_congr rfl fun k _ => ?_
  have hk := contrEquiv1_symm_val dot_S400x10000_S10000x256_S400x256_1_0_0_1_n_n 10000 rfl rfl k
  have el : dot_S400x10000_S10000x256_S400x256_1_0_0_1_n_n.lhsIdx (ix2 r j)
      ((contrEquiv1 dot_S400x10000_S10000x256_S400x256_1_0_0_1_n_n 10000 rfl rfl).symm k) = ix2 r k :=
    funext fun a => Fin.ext (by
      match a with
      | ⟨0, _⟩ => exact lhs_mm400_0 _ _
      | ⟨1, _⟩ => exact (lhs_mm400_1 _ _).trans hk)
  have er : dot_S400x10000_S10000x256_S400x256_1_0_0_1_n_n.rhsIdx (ix2 r j)
      ((contrEquiv1 dot_S400x10000_S10000x256_S400x256_1_0_0_1_n_n 10000 rfl rfl).symm k) = ix2 k j :=
    funext fun a => Fin.ext (by
      match a with
      | ⟨0, _⟩ => exact (rhs_mm400_0 _ _).trans hk
      | ⟨1, _⟩ => exact rhs_mm400_1 _ _)
  rw [el, er]

theorem pay7_val (xs : Vec Ideal S2000x256 .f32) (w : Vec Ideal S256x256 .f32) (r : Fin 2000) (j : Fin 256) :
    k0_pay7 xs w (ix2 r j) = ∑ k : Fin 256, xs (ix2 r k) * w (ix2 k j) := by
  unfold k0_pay7
  simp only [shapeCast_self]
  exact mm2000_apply (φ₁ := .f32) (φ₂ := .f32) xs w r j

theorem pay21_val (a : Vec Ideal S400x10000 .f32) (s : Vec Ideal S10000x256 .bf16) (r : Fin 400) (j : Fin 256) :
    k0_pay21 a s (ix2 r j) = ∑ l : Fin 10000, a (ix2 r l) * s (ix2 l j) := by
  unfold k0_pay21
  exact mm400_apply (truncf .bf16 a bitsLt_bf16_f32) s r j

theorem pay24_val (a : Vec Ideal S400x10000 .f32) (s : Vec Ideal S10000x256 .bf16) (r : Fin 400) (j : Fin 256) :
    k0_pay24 a s (ix2 r j) = k0_pay21 a s (ix2 r j) := by
  unfold k0_pay24
  simp only [shapeCast_self]
  rfl

theorem pay25_val (a : Vec Ideal S400x10000 .f32) (s : Vec Ideal S10000x256 .bf16) (r : Fin 400) (j : Fin 256) :
    k0_pay25 a s (ix2 r j) = k0_pay21 a s (ix2 r j) := rfl

theorem pay22_val (a : Vec Ideal S400x10000 .f32) (s : Vec Ideal S10000x256 .bf16) (j : Fin 256) :
    k0_pay22 a s (ix2 (0 : Fin 1) j) = ∑ r : Fin 400, k0_pay21 a s (ix2 r j) := by
  unfold k0_pay22
  exact (row_of_vec _ j).trans (colsum_apply (k0_pay21 a s) _ _ _ j)

theorem pay23_val (a : Vec Ideal S400x10000 .f32) (s : Vec Ideal S10000x256 .bf16) (j : Fin 256) :
    k0_pay23 a s (ix2 (0 : Fin 1) j) = ∑ r : Fin 400, k0_pay21 a s (ix2 r j) * k0_pay21 a s (ix2 r j) := by
  unfold k0_pay23
  exact (row_of_vec _ j).trans (colsum_apply (mulf (k0_pay21 a s) (k0_pay21 a s)) _ _ _ j)

theorem pay26_val (a : Vec Ideal S400x10000 .f32) (s : Vec Ideal S10000x256 .bf16) (j : Fin 256) :
    k0_pay26 a s (ix2 (0 : Fin 1) j) = k0_pay22 a s (ix2 (0 : Fin 1) j) := by
  unfold k0_pay26
  simp only [shapeCast_self]

theorem pay27_val (a : Vec Ideal S400x10000 .f32) (s : Vec Ideal S10000x256 .bf16) (j : Fin 256) :
    k0_pay27 a s (ix2 (0 : Fin 1) j) = k0_pay23 a s (ix2 (0 : Fin 1) j) := by
  unfold k0_pay27
  simp only [shapeCast_self]

theorem pay1_acc (v15 : Vec Ideal S1x256 .f32) (v36 : Vec Ideal S1x256 .f32) (j : Fin 256) :
    k0_pay1 v15 v36 (ix2 (0 : Fin 1) j) = v36 (ix2 (0 : Fin 1) j) + v15 (ix2 (0 : Fin 1) j) := by
  unfold k0_pay1
  simp only [shapeCast_self]
  rfl

theorem pay2_acc (v18 : Vec Ideal S1x256 .f32) (v41 : Vec Ideal S1x256 .f32) (j : Fin 256) :
    k0_pay2 v18 v41 (ix2 (0 : Fin 1) j) = v41 (ix2 (0 : Fin 1) j) + v18 (ix2 (0 : Fin 1) j) := by
  unfold k0_pay2
  simp only [shapeCast_self]
  rfl

theorem pay13_val (b g r0 r1 : Vec Ideal S1x256 .f32) (j : Fin 256) :
    k0_pay13 (Scalar.ofBits .f32 0x461C4000#32) b g r0 r1 (ix2 (0 : Fin 1) j)
      = scRow (r0 (ix2 (0 : Fin 1) j)) (r1 (ix2 (0 : Fin 1) j)) (b (ix2 (0 : Fin 1) j)) (g (ix2 (0 : Fin 1) j)) := by
  unfold k0_pay13 k0_pay12 k0_pay11
  simp only [shapeCast_self]
  show g (ix2 (0 : Fin 1) j) * Ideal.rsqrt ((Ideal.div (r1 (ix2 (0 : Fin 1) j)
      + Ideal.ofBits .f32 0x40000000#32 * b (ix2 (0 : Fin 1) j) * r0 (ix2 (0 : Fin 1) j)) (Ideal.ofBits .f32 0x461C4000#32)
      + b (ix2 (0 : Fin 1) j) * b (ix2 (0 : Fin 1) j)
      - (Ideal.div (r0 (ix2 (0 : Fin 1) j)) (Ideal.ofBits .f32 0x461C4000#32) + b (ix2 (0 : Fin 1) j))
        * (Ideal.div (r0 (ix2 (0 : Fin 1) j)) (Ideal.ofBits .f32 0x461C4000#32) + b (ix2 (0 : Fin 1) j)))
      + Cert.Spec.eps) = _
  rw [word_N, word_two]
  rfl

theorem pay14_val (b g be r0 r1 : Vec Ideal S1x256 .f32) (j : Fin 256) :
    k0_pay14 (Scalar.ofBits .f32 0x461C4000#32) b g be r0 r1 (ix2 (0 : Fin 1) j)
      = shRow (r0 (ix2 (0 : Fin 1) j)) (r1 (ix2 (0 : Fin 1) j)) (b (ix2 (0 : Fin 1) j)) (g (ix2 (0 : Fin 1) j))
          (be (ix2 (0 : Fin 1) j)) := by
  unfold k0_pay14
  simp only [shapeCast_self]
  show (k0_pay11 b (ix2 (0 : Fin 1) j) - k0_pay12 (Scalar.ofBits .f32 0x461C4000#32) b r0 (ix2 (0 : Fin 1) j))
      * k0_pay13 (Scalar.ofBits .f32 0x461C4000#32) b g r0 r1 (ix2 (0 : Fin 1) j) + be (ix2 (0 : Fin 1) j) = _
  rw [pay13_val]
  unfold k0_pay12 k0_pay11
  simp only [shapeCast_self]
  show (b (ix2 (0 : Fin 1) j) - (Ideal.div (r0 (ix2 (0 : Fin 1) j)) (Ideal.ofBits .f32 0x461C4000#32) + b (ix2 (0 : Fin 1) j)))
      * _ + _ = _
  rw [word_N]
  rfl

theorem pay5_val (b g r0 r1 : Vec Ideal S1x256 .f32) (j : Fin 256) :
    k0_pay5 b g r0 r1 (ix2 (0 : Fin 1) j)
      = scRow (r0 (ix2 (0 : Fin 1) j)) (r1 (ix2 (0 : Fin 1) j)) (b (ix2 (0 : Fin 1) j)) (g (ix2 (0 : Fin 1) j)) :=
  pay13_val b g r0 r1 j

theorem pay6_val (b g be r0 r1 : Vec Ideal S1x256 .f32) (j : Fin 256) :
    k0_pay6 b g be r0 r1 (ix2 (0 : Fin 1) j)
      = shRow (r0 (ix2 (0 : Fin 1) j)) (r1 (ix2 (0 : Fin 1) j)) (b (ix2 (0 : Fin 1) j)) (g (ix2 (0 : Fin 1) j))
          (be (ix2 (0 : Fin 1) j)) :=
  pay14_val b g be r0 r1 j

theorem pay16_val (sc sh : FVec Ideal S1x256 .f32) (hs : Vec Ideal S2000x256 .bf16) (w : Vec Ideal S256x256 .f32)
    (r : Fin 2000) (j : Fin 256) :
    k0_pay16 sc sh hs w (ix2 r j)
      = ∑ k : Fin 256, (hs (ix2 r k) * sc (ix2 (0 : Fin 1) k) + sh (ix2 (0 : Fin 1) k)) * w (ix2 k j) := by
  unfold k0_pay16
  simp only [shapeCast_self]
  refine (mm2000_apply (φ₁ := .f32) (φ₂ := .f32) _ w r j).trans (Finset.sum_congr rfl fun k _ => ?_)
  rw [addf_apply, mulf_apply, bcast_row, bcast_row]
  rfl

theorem pay15_val (b g be r0 r1 : Vec Ideal S1x256 .f32) (hs : Vec Ideal S2000x256 .bf16) (w : Vec Ideal S256x256 .f32)
    (r : Fin 2000) (j : Fin 256) :
    k0_pay15 (Scalar.ofBits .f32 0x461C4000#32) b g be r0 r1 hs w (ix2 r j)
      = ∑ k : Fin 256, (hs (ix2 r k)
            * scRow (r0 (ix2 (0 : Fin 1) k)) (r1 (ix2 (0 : Fin 1) k)) (b (ix2 (0 : Fin 1) k)) (g (ix2 (0 : Fin 1) k))
          + shRow (r0 (ix2 (0 : Fin 1) k)) (r1 (ix2 (0 : Fin 1) k)) (b (ix2 (0 : Fin 1) k)) (g (ix2 (0 : Fin 1) k))
              (be (ix2 (0 : Fin 1) k))) * w (ix2 k j) := by
  refine (pay16_val (k0_pay13 (Scalar.ofBits .f32 0x461C4000#32) b g r0 r1)
    (k0_pay14 (Scalar.ofBits .f32 0x461C4000#32) b g be r0 r1) hs w r j).trans (Finset.sum_congr rfl fun k _ => ?_)
  rw [pay13_val, pay14_val]

theorem pay1_val (h : Vec Ideal S2000x256 .bf16) (r0 r1 : Vec Ideal S1x256 .f32) (r : Fin 2000) (j : Fin 256) :
    k1_pay1 h r0 r1 (ix2 r j) = Ideal.tanh (h (ix2 r j) * r0 (ix2 (0 : Fin 1) j) + r1 (ix2 (0 : Fin 1) j)) := by
  unfold k1_pay1
  simp only [shapeCast_self]
  show Ideal.tanh (h (ix2 r j) * broadcastTo S2000x256 r0 broadcasts_S1x256_S2000x256 (ix2 r j)
      + broadcastTo S2000x256 r1 broadcasts_S1x256_S2000x256 (ix2 r j)) = _
  rw [bcast_row, bcast_row]

end Cert.KernelIdeal.Hand

end
-- ==== Proof.KCover.lean ====
import proofs.«112434_g77017353552286_cont_9to1c4b_820_16_alg».proof.Proof.KData
import Idealize.ShloMosaic.Lib.Pipeline.Value
import Idealize.ShloMosaic.Lib.ValueIdx

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable {F : FTy → Type} [FloatOps F]

private theorem zeroOff2 : (![0, 0] : Fin 2 → Nat) = fun _ => 0 := funext fun a => by fin_cases a <;> rfl

section Region1

variable (V : (c : Dev nD) → (b : Ref sig .tc) → Buf (Elt F) ((c : Thread nD τ).loc b)) (c : Dev nD)

private theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

private theorem lt_N1 (t : Fin cfg1.N) : t.val < 5 := Nat.lt_of_lt_of_eq t.isLt (show cfg1.N = 5 from N_1)

theorem iblk1_0_apply (t : Fin cfg1.N) (x : S2000x256.Idx) (y : S10000x256.Idx)
    (h0 : (y 0).val = 2000 * t.val + (x 0).val) (h1 : (y 1).val = (x 1).val) :
    (iblk1 V c 0 t : Vec F S2000x256 .bf16) x = (V c main_v6_0 : S10000x256.Idx → Elt F .bf16) y := by
  obtain ⟨e0, e1, -⟩ := idx1 t
  unfold iblk1
  rw [View.read_apply]
  show V c main_v6_0 _ = V c main_v6_0 _
  congr 1
  funext a; apply Fin.ext
  match a with
  | ⟨0, _⟩ => show win1_0.index t (0 : Fin 2) * 2000 + 1 * (x 0).val = (y 0).val; rw [e0, h0]; omega
  | ⟨1, _⟩ => show win1_0.index t (1 : Fin 2) * 256 + 1 * (x 1).val = (y 1).val; rw [e1, h1]; omega

def rows2000 {e : EltTy} (h : Vec F S10000x256 e) (k : ℕ) : Vec F S2000x256 e := fun x =>
  h (ix2 (⟨2000 * (k % 5) + (x 0).val, by
      have := idx2_lt0 x; have := Nat.mod_lt k (show 0 < 5 by decide); omega⟩ : Fin 10000)
    (⟨(x 1).val, idx2_lt1 x⟩ : Fin 256))

theorem rows2000_apply {e : EltTy} (h : Vec F S10000x256 e) (k : Fin 5) (r : Fin 2000) (j : Fin 256) :
    rows2000 h k.val (ix2 r j) = h (ix2 (⟨2000 * k.val + r.val, by omega⟩ : Fin 10000) j) := by
  unfold rows2000
  congr 1
  funext a; apply Fin.ext
  match a with
  | ⟨0, _⟩ => show 2000 * (k.val % 5) + r.val = 2000 * k.val + r.val; rw [Nat.mod_eq_of_lt k.isLt]
  | ⟨1, _⟩ => rfl

theorem iblk1_0_eq (t : Fin cfg1.N) : (iblk1 V c 0 t : Vec F S2000x256 .bf16) = rows2000 (V c main_v6_0) t.val := by
  funext x
  refine iblk1_0_apply V c t x _ ?_ ?_
  · show 2000 * (t.val % 5) + (x 0).val = 2000 * t.val + (x 0).val; rw [Nat.mod_eq_of_lt (lt_N1 t)]
  · rfl

theorem iblk1_1_eq (t : Fin cfg1.N) : (iblk1 V c 1 t : Vec F S2x256 .f32) = V c main_v6_1 := by
  obtain ⟨-, -, e2, e3, -⟩ := idx1 t
  funext x
  unfold iblk1
  rw [View.read_apply]
  show V c main_v6_1 _ = V c main_v6_1 x
  congr 1
  funext a; apply Fin.ext
  match a with
  | ⟨0, _⟩ => show win1_1.index t (0 : Fin 2) * 2 + 1 * (x 0).val = (x 0).val; rw [e2]; omega
  | ⟨1, _⟩ => show win1_1.index t (1 : Fin 2) * 256 + 1 * (x 1).val = (x 1).val; rw [e3]; omega

theorem coefRow0_apply {e : EltTy} (x : Vec F S2x256 e) (j : Fin 256) : View.ld x rs0 (ix2 (0 : Fin 1) j) = x (ix2 (0 : Fin 2) j) := by
  show x (rs0.emb (ix2 (0 : Fin 1) j)) = _
  congr 1
  funext a; apply Fin.ext
  match a with
  | ⟨0, _⟩ => rw [Rect.emb_apply]; rfl
  | ⟨1, _⟩ => rw [Rect.emb_apply]; show 0 + 1 * j.val = j.val; omega
theorem coefRow1_apply {e : EltTy} (x : Vec F S2x256 e) (j : Fin 256) : View.ld x rs1 (ix2 (0 : Fin 1) j) = x (ix2 (1 : Fin 2) j) := by
  show x (rs1.emb (ix2 (0 : Fin 1) j)) = _
  congr 1
  funext a; apply Fin.ext
  match a with
  | ⟨0, _⟩ => rw [Rect.emb_apply]; rfl
  | ⟨1, _⟩ => rw [Rect.emb_apply]; show 0 + 1 * j.val = j.val; omega

def G1 (h : Vec F S10000x256 .bf16) (co : Vec F S2x256 .f32) : Vec F S10000x256 .f32 := fun y =>
  k1_pay1 (rows2000 h ((y 0).val / 2000)) (View.ld co rs0) (View.ld co rs1)
    (ix2 (⟨(y 0).val % 2000, Nat.mod_lt _ (by decide)⟩ : Fin 2000) (⟨(y 1).val, idx2_lt1 y⟩ : Fin 256))

theorem G1_at (h : Vec F S10000x256 .bf16) (co : Vec F S2x256 .f32) (k : ℕ) (x : S2000x256.Idx) (y : S10000x256.Idx)
    (h0 : (y 0).val = 2000 * k + (x 0).val) (h1 : (y 1).val = (x 1).val) :
    G1 h co y = k1_pay1 (rows2000 h k) (View.ld co rs0) (View.ld co rs1) x := by
  have hx := idx2_lt0 x
  have e : (y 0).val / 2000 = k := by omega
  unfold G1
  rw [e]
  refine congrArg (k1_pay1 _ _ _) ?_
  funext a; apply Fin.ext
  match a with
  | ⟨0, _⟩ => show (y 0).val % 2000 = (x 0).val; omega
  | ⟨1, _⟩ => exact h1

private theorem flushed1_eq (t : Fin cfg1.N) :
    (dat1 V c).flushed 2 t = ((cfg1.win 2).blk t).view.read (Elt F) (G1 (V c main_v6_0) (V c main_v6_1)) := by
  show (cfg1.win 2).cut (grid1.coords t) ((dat1 V c).after 2 t) = _
  rw [after1_2]
  unfold out1_2
  rw [View.canon_unit_zero zeroOff2]
  simp only [View.ld_unit_zero (S := S2000x256) zeroOff2]
  rw [iblk1_0_eq, iblk1_1_eq]
  obtain ⟨-, -, -, -, e4, e5⟩ := idx1 t
  funext x
  rw [View.read_apply]
  refine (G1_at (V c main_v6_0) (V c main_v6_1) t.val x _ ?_ ?_).symm
  · show win1_2.index t (0 : Fin 2) * 2000 + 1 * (x 0).val = _; rw [e4]; omega
  · show win1_2.index t (1 : Fin 2) * 256 + 1 * (x 1).val = _; rw [e5]; omega

private theorem mem_blk1 (t : Fin cfg1.N) (i : S10000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v7).slice (win1_2.rect t)).set ↔ _
  rw [View.set_slice_whole, Rect.mem_set_unit]
  exact Iff.rfl

private theorem cover1 (i : S10000x256.Idx) : ∃ t : Fin cfg1.N, (cfg1.win 2).flush t = true ∧ i ∈ ((cfg1.win 2).blk t).view.set := by
  have hi0 := idx2_lt0 i
  have hi1 := idx2_lt1 i
  let t : Fin cfg1.N := ⟨(i 0).val / 2000, by rw [show cfg1.N = 5 from N_1]; omega⟩
  have ht : t.val = (i 0).val / 2000 := rfl
  obtain ⟨-, -, -, -, e4, e5⟩ := idx1 t
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; rw [e4, ht]; omega
  | ⟨1, _⟩ => show win1_2.index t (1 : Fin 2) * 256 ≤ (i 1).val ∧ (i 1).val < win1_2.index t (1 : Fin 2) * 256 + 256; rw [e5]; omega

theorem arr1_eq : (dat1 V c).arrAt 2 cfg1.N = G1 (V c main_v6_0) (V c main_v6_1) :=
  (dat1 V c).arrAt_eq_of_cover 2 (G1 (V c main_v6_0) (V c main_v6_1)) (fun t _ => flushed1_eq V c t) cover1

theorem arr1_val (k : Fin 5) (r : Fin 2000) (j : Fin 256) :
    (dat1 V c).arrAt 2 cfg1.N (ix2 (⟨2000 * k.val + r.val, by omega⟩ : Fin 10000) j)
      = k1_pay1 (rows2000 (V c main_v6_0) k.val) (View.ld (V c main_v6_1) rs0) (View.ld (V c main_v6_1) rs1) (ix2 r j) := by
  rw [arr1_eq]
  exact G1_at _ _ k.val (ix2 r j) _ rfl rfl

end Region1

section Region0Out

variable (V : (c : Dev nD) → (b : Ref sig .tc) → Buf (Elt F) ((c : Thread nD τ).loc b)) (c : Dev nD)

private theorem lt_N0 (t : Fin cfg0.N) : t.val < 50 := Nat.lt_of_lt_of_eq t.isLt (show cfg0.N = 50 from N_0)

private theorem pt_val (t : Fin cfg0.N) : pt t.val = t := Fin.ext (Nat.mod_eq_of_lt (lt_N0 t))

private theorem idx0_out : ∀ t : Fin cfg0.N, (25 ≤ t.val → win0_10.index t (0 : Fin 2) = t.val - 25) ∧ win0_10.index t (1 : Fin 2) = 0
    ∧ (win0_10.flush t = true ↔ 25 ≤ t.val)
    ∧ win0_11.index t (0 : Fin 2) = 0 ∧ win0_11.index t (1 : Fin 2) = 0 :=
  (by decide +kernel : ∀ t : Fin grid0.N, _)

def G10 : Vec F S10000x256 .bf16 := fun y =>
  h2Blk V c (pt (25 + (y 0).val / 400))
    (ix2 (⟨(y 0).val % 400, Nat.mod_lt _ (by decide)⟩ : Fin 400) (⟨(y 1).val, idx2_lt1 y⟩ : Fin 256))

theorem G10_at (t : Fin cfg0.N) (ht : 25 ≤ t.val) (x : S400x256.Idx) (y : S10000x256.Idx)
    (h0 : (y 0).val = 400 * (t.val - 25) + (x 0).val) (h1 : (y 1).val = (x 1).val) : G10 V c y = h2Blk V c t x := by
  have hx := idx2_lt0 x
  have e : pt (25 + (y 0).val / 400) = t := by
    apply Fin.ext; show (25 + (y 0).val / 400) % 50 = t.val; have := lt_N0 t; omega
  unfold G10
  rw [e]
  refine congrArg (h2Blk V c t) ?_
  funext a; apply Fin.ext
  match a with
  | ⟨0, _⟩ => show (y 0).val % 400 = (x 0).val; omega
  | ⟨1, _⟩ => exact h1

private theorem flushed0_10_eq (t : Fin cfg0.N) (hf : (cfg0.win 10).flush t = true) :
    (dat0 V c).flushed 10 t = ((cfg0.win 10).blk t).view.read (Elt F) (G10 V c) := by
  obtain ⟨e0, e1, ef, -⟩ := idx0_out t
  have ht : 25 ≤ t.val := ef.mp hf
  show (cfg0.win 10).cut (grid0.coords t) ((dat0 V c).after 10 t) = _
  rw [after0_10]
  funext x
  rw [View.read_apply]
  refine (G10_at V c t ht x _ ?_ ?_).symm
  · show win0_10.index t (0 : Fin 2) * 400 + 1 * (x 0).val = _; rw [e0 ht]; omega
  · show win0_10.index t (1 : Fin 2) * 256 + 1 * (x 1).val = _; rw [e1]; omega

private theorem mem_blk0_10 (t : Fin cfg0.N) (i : S10000x256.Idx) :
    i ∈ ((cfg0.win 10).blk t).view.set ↔ ∀ a : Fin 2, win0_10.index t a * S400x256.size a ≤ (i a).val ∧ (i a).val < win0_10.index t a * S400x256.size a + S400x256.size a := by
  show i ∈ ((View.whole main_v6_0).slice (win0_10.rect t)).set ↔ _
  rw [View.set_slice_whole, Rect.mem_set_unit]
  exact Iff.rfl

private theorem cover0_10 (i : S10000x256.Idx) : ∃ t : Fin cfg0.N, (cfg0.win 10).flush t = true ∧ i ∈ ((cfg0.win 10).blk t).view.set := by
  have hi0 := idx2_lt0 i
  have hi1 := idx2_lt1 i
  let t : Fin cfg0.N := ⟨25 + (i 0).val / 400, by rw [show cfg0.N = 50 from N_0]; omega⟩
  have ht : t.val = 25 + (i 0).val / 400 := rfl
  obtain ⟨e0, e1, ef, -⟩ := idx0_out t
  have h25 : 25 ≤ t.val := by omega
  refine ⟨t, ef.mpr h25, ?_⟩
  rw [mem_blk0_10]
  intro a
  match a with
  | ⟨0, _⟩ => show win0_10.index t (0 : Fin 2) * 400 ≤ (i 0).val ∧ (i 0).val < win0_10.index t (0 : Fin 2) * 400 + 400; rw [e0 h25, ht]; omega
  | ⟨1, _⟩ => show win0_10.index t (1 : Fin 2) * 256 ≤ (i 1).val ∧ (i 1).val < win0_10.index t (1 : Fin 2) * 256 + 256; rw [e1]; omega

theorem arr10_eq : (dat0 V c).arrAt 10 cfg0.N = G10 V c :=
  (dat0 V c).arrAt_eq_of_cover 10 (G10 V c) (flushed0_10_eq V c) (cover0_10)

theorem arr10_val (k : Fin 25) (r : Fin 400) (j : Fin 256) :
    (dat0 V c).arrAt 10 cfg0.N (ix2 (⟨400 * k.val + r.val, by omega⟩ : Fin 10000) j) = h2Blk V c (pt (25 + k.val)) (ix2 r j) := by
  rw [arr10_eq]
  refine G10_at V c (pt (25 + k.val)) ?_ (ix2 r j) _ ?_ rfl
  · show 25 ≤ (25 + k.val) % 50; omega
  · show 400 * k.val + r.val = 400 * ((25 + k.val) % 50 - 25) + r.val; omega

private theorem flushed0_11_eq (t : Fin cfg0.N) (hf : (cfg0.win 11).flush t = true) :
    (dat0 V c).flushed 11 t = ((cfg0.win 11).blk t).view.read (Elt F) (coefB V c) := by
  obtain ⟨-, -, -, e3, e4⟩ := idx0_out t
  show (cfg0.win 11).cut (grid0.coords t) ((dat0 V c).after 11 t) = _
  rw [after0_11]
  funext x
  rw [View.read_apply]
  show coefB V c _ = coefB V c _
  congr 1
  funext a; apply Fin.ext
  match a with
  | ⟨0, _⟩ => show (x 0).val = win0_11.index t (0 : Fin 2) * 2 + 1 * (x 0).val; rw [e3]; omega
  | ⟨1, _⟩ => show (x 1).val = win0_11.index t (1 : Fin 2) * 256 + 1 * (x 1).val; rw [e4]; omega

private theorem mem_blk0_11 (t : Fin cfg0.N) (i : S2x256.Idx) :
    i ∈ ((cfg0.win 11).blk t).view.set ↔ ∀ a : Fin 2, win0_11.index t a * S2x256.size a ≤ (i a).val ∧ (i a).val < win0_11.index t a * S2x256.size a + S2x256.size a := by
  show i ∈ ((View.whole main_v6_1).slice (win0_11.rect t)).set ↔ _
  rw [View.set_slice_whole, Rect.mem_set_unit]
  exact Iff.rfl

theorem arr11_val : (dat0 V c).arrAt 11 cfg0.N = coefB V c :=
  (dat0 V c).arrAt_eq_of_cover 11 (coefB V c) (flushed0_11_eq V c) fun i => by
    have hi0 := idx2_lt0 i
    have hi1 := idx2_lt1 i
    obtain ⟨-, -, -, e3, e4⟩ := idx0_out (pt 49)
    refine ⟨pt 49, (flush0_11 (pt 49)).mpr rfl, ?_⟩
    rw [mem_blk0_11]
    intro a
    match a with
    | ⟨0, _⟩ => show win0_11.index (pt 49) (0 : Fin 2) * 2 ≤ (i 0).val ∧ (i 0).val < win0_11.index (pt 49) (0 : Fin 2) * 2 + 2; rw [e3]; omega
    | ⟨1, _⟩ => show win0_11.index (pt 49) (1 : Fin 2) * 256 ≤ (i 1).val ∧ (i 1).val < win0_11.index (pt 49) (1 : Fin 2) * 256 + 256; rw [e4]; omega

end Region0Out

section Fold

variable (m : (ℓ : Loc nD τ sig) → Buf (Elt F) ℓ) (c : Dev nD)

theorem W2_v6_0 : W2 m c (Proc.devRef .tc main_v6_0) = (dat0 (V1 m) c).arrAt 10 cfg0.N := by
  unfold W2; exact Pipeline.withArrays_arr spec0 launch0.win.arr_inj c _ _ 10

theorem W2_v6_1 : W2 m c (Proc.devRef .tc main_v6_1) = (dat0 (V1 m) c).arrAt 11 cfg0.N := by
  unfold W2; exact Pipeline.withArrays_arr spec0 launch0.win.arr_inj c _ _ 11

theorem W3_v7 : W3 m c (Proc.devRef .tc main_v7) = (dat1 (V2 m) c).arrAt 2 cfg1.N := by
  unfold W3; exact Pipeline.withArrays_arr spec1 launch1.win.arr_inj c _ _ 2

end Fold

end Cert.KernelIdeal.Hand

end
-- ==== Proof.KCover0.lean ====
import proofs.«112434_g77017353552286_cont_9to1c4b_820_16_alg».proof.Proof.KData
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable {F : FTy → Type} [FloatOps F]

variable (m : (ℓ : Loc nD τ sig) → Buf (Elt F) ℓ)

theorem V1_of (c : Dev nD) (b : Ref sig .tc) (hb : b ∉ ([main_v0, main_v1, main_v2, main_v3, main_v4, main_v5] : List (Ref sig .tc))) :
    V1 m c b = m ((c : Thread nD τ).loc b) :=
  (StableHlo.after_of_forall_not_mem (b := Proc.devRef .tc b) _ _ (List.forall_iff_forall_mem.mp (by
    simp only [hostOps0, List.Forall, StableHlo.reshape_writes, Finset.mem_singleton]
    refine ⟨?_, ?_, ?_, ?_, ?_, ?_⟩ <;>
      exact StableHlo.devRef_ne_of_ne (fun e => hb (by subst e; simp))))).trans rfl

theorem V1_v0 (c : Dev nD) : (V1 m c main_v0 : S1x256.Idx → Elt F .f32)
    = shapeCast S1x256 (m ((c : Thread nD τ).loc main_arg3)) shapeCasts_S256_S1x256 := by
  dsimp only [V1, W1, hostOps0]; after_results; rfl
theorem V1_v1 (c : Dev nD) : (V1 m c main_v1 : S1x256.Idx → Elt F .f32)
    = shapeCast S1x256 (m ((c : Thread nD τ).loc main_arg7)) shapeCasts_S256_S1x256 := by
  dsimp only [V1, W1, hostOps0]; after_results; rfl
theorem V1_v2 (c : Dev nD) : (V1 m c main_v2 : S1x256.Idx → Elt F .f32)
    = shapeCast S1x256 (m ((c : Thread nD τ).loc main_arg4)) shapeCasts_S256_S1x256 := by
  dsimp only [V1, W1, hostOps0]; after_results; rfl
theorem V1_v3 (c : Dev nD) : (V1 m c main_v3 : S1x256.Idx → Elt F .f32)
    = shapeCast S1x256 (m ((c : Thread nD τ).loc main_arg8)) shapeCasts_S256_S1x256 := by
  dsimp only [V1, W1, hostOps0]; after_results; rfl
theorem V1_v4 (c : Dev nD) : (V1 m c main_v4 : S1x256.Idx → Elt F .f32)
    = shapeCast S1x256 (m ((c : Thread nD τ).loc main_arg5)) shapeCasts_S256_S1x256 := by
  dsimp only [V1, W1, hostOps0]; after_results; rfl
theorem V1_v5 (c : Dev nD) : (V1 m c main_v5 : S1x256.Idx → Elt F .f32)
    = shapeCast S1x256 (m ((c : Thread nD τ).loc main_arg9)) shapeCasts_S256_S1x256 := by
  dsimp only [V1, W1, hostOps0]; after_results; rfl

theorem row_cast_apply {α : Type} (x : S256.Idx → α) (j : Fin 256) :
    shapeCast S1x256 x shapeCasts_S256_S1x256 (ix2 (0 : Fin 1) j) = x (ix1 j) :=
  shapeCast_apply x shapeCasts_S256_S1x256 (ix2 (0 : Fin 1) j) (ix1 j) (by
    rw [Shape.rowMajor_val_two, Shape.rowMajor_val_one]; show j.val = 0 * 256 + j.val; omega)

theorem idx_in0 : ∀ t : Fin cfg0.N, win0_0.index t (0 : Fin 2) = t.val % 25 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)
theorem idx_rows0 : ∀ t : Fin cfg0.N, win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

theorem adjB_val (c : Dev nD) (n : ℕ) (hn : n < 50) (r : Fin 400) (l : Fin 10000) :
    adjB (V1 m) c (pt n) (ix2 r l)
      = m ((c.tc : Thread nD τ).loc main_arg1) (ix2 (⟨400 * (n % 25) + r.val, by omega⟩ : Fin 10000) l) := by
  obtain ⟨e0, e1, -⟩ := idx_in0 (pt n)
  have hp : (pt n).val = n := Nat.mod_eq_of_lt hn
  show V1 m c main_arg1 (((cfg0.win 0).blk (pt n)).view.emb (ix2 r l)) = _
  rw [V1_of m c main_arg1 (by decide)]
  refine congrArg _ ?_
  funext a; apply Fin.ext
  match a with
  | ⟨0, _⟩ => show win0_0.index (pt n) (0 : Fin 2) * 400 + 1 * r.val = 400 * (n % 25) + r.val; rw [e0, hp]; omega
  | ⟨1, _⟩ => show win0_0.index (pt n) (1 : Fin 2) * 10000 + 1 * l.val = l.val; rw [e1]; omega

theorem xB_val (c : Dev nD) (t : Fin cfg0.N) : xB (V1 m) c t = m ((c.tc : Thread nD τ).loc main_arg0) := by
  obtain ⟨-, -, e0, e1, -⟩ := idx_in0 t
  funext y
  show V1 m c main_arg0 (((cfg0.win 1).blk t).view.emb y) = _
  rw [V1_of m c main_arg0 (by decide)]
  refine congrArg _ ?_
  funext a; apply Fin.ext
  match a with
  | ⟨0, _⟩ => show win0_1.index t (0 : Fin 2) * 10000 + 1 * (y 0).val = (y 0).val; rw [e0]; omega
  | ⟨1, _⟩ => show win0_1.index t (1 : Fin 2) * 256 + 1 * (y 1).val = (y 1).val; rw [e1]; omega

theorem w1B_val (c : Dev nD) (t : Fin cfg0.N) : w1B (V1 m) c t = m ((c.tc : Thread nD τ).loc main_arg2) := by
  obtain ⟨-, -, -, -, e0, e1, -⟩ := idx_in0 t
  funext y
  show V1 m c main_arg2 (((cfg0.win 2).blk t).view.emb y) = _
  rw [V1_of m c main_arg2 (by decide)]
  refine congrArg _ ?_
  funext a; apply Fin.ext
  match a with
  | ⟨0, _⟩ => show win0_2.index t (0 : Fin 2) * 256 + 1 * (y 0).val = (y 0).val; rw [e0]; omega
  | ⟨1, _⟩ => show win0_2.index t (1 : Fin 2) * 256 + 1 * (y 1).val = (y 1).val; rw [e1]; omega

theorem w2B_val (c : Dev nD) (t : Fin cfg0.N) : w2B (V1 m) c t = m ((c.tc : Thread nD τ).loc main_arg6) := by
  obtain ⟨-, -, -, -, -, -, e0, e1⟩ := idx_in0 t
  funext y
  show V1 m c main_arg6 (((cfg0.win 3).blk t).view.emb y) = _
  rw [V1_of m c main_arg6 (by decide)]
  refine congrArg _ ?_
  funext a; apply Fin.ext
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

theorem b1B_val (c : Dev nD) (t : Fin cfg0.N) (j : Fin 256) :
    b1B (V1 m) c t (ix2 (0 : Fin 1) j) = m ((c.tc : Thread nD τ).loc main_arg3) (ix1 j) := by
  obtain ⟨e0, e1, -⟩ := idx_rows0 t
  show (V1 m c main_v0 : S1x256.Idx → Elt F .f32) (((cfg0.win 4).blk t).view.emb (ix2 (0 : Fin 1) j)) = _
  rw [V1_v0 m c, ← row_cast_apply (m ((c.tc : Thread nD τ).loc main_arg3)) j]
  refine congrArg _ ?_
  funext a; apply Fin.ext
  match a with
  | ⟨0, _⟩ => show win0_4.index t (0 : Fin 2) * 1 + 1 * 0 = 0; rw [e0]
  | ⟨1, _⟩ => show win0_4.index t (1 : Fin 2) * 256 + 1 * j.val = j.val; rw [e1]; omega

theorem b2B_val (c : Dev nD) (t : Fin cfg0.N) (j : Fin 256) :
    b2B (V1 m) c t (ix2 (0 : Fin 1) j) = m ((c.tc : Thread nD τ).loc main_arg7) (ix1 j) := by
  obtain ⟨-, -, e0, e1, -⟩ := idx_rows0 t
  show (V1 m c main_v1 : S1x256.Idx → Elt F .f32) (((cfg0.win 5).blk t).view.emb (ix2 (0 : Fin 1) j)) = _
  rw [V1_v1 m c, ← row_cast_apply (m ((c.tc : Thread nD τ).loc main_arg7)) j]
  refine congrArg _ ?_
  funext a; apply Fin.ext
  match a with
  | ⟨0, _⟩ => show win0_5.index t (0 : Fin 2) * 1 + 1 * 0 = 0; rw [e0]
  | ⟨1, _⟩ => show win0_5.index t (1 : Fin 2) * 256 + 1 * j.val = j.val; rw [e1]; omega

theorem g1B_val (c : Dev nD) (t : Fin cfg0.N) (j : Fin 256) :
    g1B (V1 m) c t (ix2 (0 : Fin 1) j) = m ((c.tc : Thread nD τ).loc main_arg4) (ix1 j) := by
  obtain ⟨-, -, -, -, e0, e1, -⟩ := idx_rows0 t
  show (V1 m c main_v2 : S1x256.Idx → Elt F .f32) (((cfg0.win 6).blk t).view.emb (ix2 (0 : Fin 1) j)) = _
  rw [V1_v2 m c, ← row_cast_apply (m ((c.tc : Thread nD τ).loc main_arg4)) j]
  refine congrArg _ ?_
  funext a; apply Fin.ext
  match a with
  | ⟨0, _⟩ => show win0_6.index t (0 : Fin 2) * 1 + 1 * 0 = 0; rw [e0]
  | ⟨1, _⟩ => show win0_6.index t (1 : Fin 2) * 256 + 1 * j.val = j.val; rw [e1]; omega

theorem g2B_val (c : Dev nD) (t : Fin cfg0.N) (j : Fin 256) :
    g2B (V1 m) c t (ix2 (0 : Fin 1) j) = m ((c.tc : Thread nD τ).loc main_arg8) (ix1 j) := by
  obtain ⟨-, -, -, -, -, -, e0, e1, -⟩ := idx_rows0 t
  show (V1 m c main_v3 : S1x256.Idx → Elt F .f32) (((cfg0.win 7).blk t).view.emb (ix2 (0 : Fin 1) j)) = _
  rw [V1_v3 m c, ← row_cast_apply (m ((c.tc : Thread nD τ).loc main_arg8)) j]
  refine congrArg _ ?_
  funext a; apply Fin.ext
  match a with
  | ⟨0, _⟩ => show win0_7.index t (0 : Fin 2) * 1 + 1 * 0 = 0; rw [e0]
  | ⟨1, _⟩ => show win0_7.index t (1 : Fin 2) * 256 + 1 * j.val = j.val; rw [e1]; omega

theorem be1B_val (c : Dev nD) (t : Fin cfg0.N) (j : Fin 256) :
    be1B (V1 m) c t (ix2 (0 : Fin 1) j) = m ((c.tc : Thread nD τ).loc main_arg5) (ix1 j) := by
  obtain ⟨-, -, -, -, -, -, -, -, e0, e1, -⟩ := idx_rows0 t
  show (V1 m c main_v4 : S1x256.Idx → Elt F .f32) (((cfg0.win 8).blk t).view.emb (ix2 (0 : Fin 1) j)) = _
  rw [V1_v4 m c, ← row_cast_apply (m ((c.tc : Thread nD τ).loc main_arg5)) j]
  refine congrArg _ ?_
  funext a; apply Fin.ext
  match a with
  | ⟨0, _⟩ => show win0_8.index t (0 : Fin 2) * 1 + 1 * 0 = 0; rw [e0]
  | ⟨1, _⟩ => show win0_8.index t (1 : Fin 2) * 256 + 1 * j.val = j.val; rw [e1]; omega

theorem be2B_val (c : Dev nD) (t : Fin cfg0.N) (j : Fin 256) :
    be2B (V1 m) c t (ix2 (0 : Fin 1) j) = m ((c.tc : Thread nD τ).loc main_arg9) (ix1 j) := by
  obtain ⟨-, -, -, -, -, -, -, -, -, -, e0, e1⟩ := idx_rows0 t
  show (V1 m c main_v5 : S1x256.Idx → Elt F .f32) (((cfg0.win 9).blk t).view.emb (ix2 (0 : Fin 1) j)) = _
  rw [V1_v5 m c, ← row_cast_apply (m ((c.tc : Thread nD τ).loc main_arg9)) j]
  refine congrArg _ ?_
  funext a; apply Fin.ext
  match a with
  | ⟨0, _⟩ => show win0_9.index t (0 : Fin 2) * 1 + 1 * 0 = 0; rw [e0]
  | ⟨1, _⟩ => show win0_9.index t (1 : Fin 2) * 256 + 1 * j.val = j.val; rw [e1]; omega

end Cert.KernelIdeal.Hand

end
-- ==== Proof.LibPropagate.lean ====
import Mathlib.Data.EReal.Operations
import Mathlib.Algebra.BigOperators.Ring.Finset
import Mathlib.Algebra.BigOperators.Fin
import Mathlib.Logic.Equiv.Fin.Basic
import Mathlib.Tactic.Ring

open scoped BigOperators

namespace Cert.Lib.Propagate

theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem coe_finsetSum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem finsetSum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finsetSum]; exact Finset.sum_congr rfl fun i _ => hg i⟩

theorem sum_real {ι : Type} [Fintype ι] (f : ι → EReal) (hf : ∀ i, ∃ r : ℝ, f i = (r : EReal)) :
    ∃ r : ℝ, ∑ i, f i = (r : EReal) :=
  finsetSum_real Finset.univ f hf

theorem sum_blocks {M : Type} [AddCommMonoid M] (a b : ℕ) (g : ℕ → M) :
    ∑ t : Fin a, ∑ r : Fin b, g (t.val * b + r.val) = ∑ j : Fin (a * b), g j.val := by
  rw [← Fintype.sum_prod_type', ← (finProdFinEquiv (m := a) (n := b)).sum_comp]
  refine Fintype.sum_congr _ _ fun p => ?_
  rw [finProdFinEquiv_apply_val, Nat.add_comm, Nat.mul_comm]

theorem sum_blocks_25_400 {M : Type} [AddCommMonoid M] (g : ℕ → M) :
    (∑ t : Fin 25, ∑ r : Fin 400, g (t.val * 400 + r.val)) = ∑ j : Fin 10000, g j.val :=
  sum_blocks 25 400 g

end Cert.Lib.Propagate
-- ==== Proof.KStats.lean ====
import proofs.«112434_g77017353552286_cont_9to1c4b_820_16_alg».proof.Proof.KDefs
import proofs.«112434_g77017353552286_cont_9to1c4b_820_16_alg».proof.Proof.KPay
import proofs.«112434_g77017353552286_cont_9to1c4b_820_16_alg».proof.Proof.Spec
import proofs.«112434_g77017353552286_cont_9to1c4b_820_16_alg».proof.Proof.LibPropagate
import Idealize.ShloMosaic.Lib.Pipeline.Value
import Mathlib.Algebra.BigOperators.Fin
import Mathlib.Tactic.Ring

open scoped BigOperators

noncomputable section

namespace Cert.KernelIdeal.Hand

open Idealize.ShloMosaic Idealize.ShloMosaic.ValueIdx Cert.KernelIdeal Cert.KernelIdeal.Gen

theorem rs0_emb (j : Fin 256) : rs0.emb (ix2 (0 : Fin 1) j) = ix2 (0 : Fin 2) j := by
  funext a
  apply Fin.ext
  rw [Rect.emb_apply]
  match a with
  | ⟨0, _⟩ => rfl
  | ⟨1, _⟩ => show 0 + 1 * j.val = j.val; omega

theorem rs1_emb (j : Fin 256) : rs1.emb (ix2 (0 : Fin 1) j) = ix2 (1 : Fin 2) j := by
  funext a
  apply Fin.ext
  rw [Rect.emb_apply]
  match a with
  | ⟨0, _⟩ => rfl
  | ⟨1, _⟩ => show 0 + 1 * j.val = j.val; omega

theorem row0_not_mem_rs1 (j : Fin 256) : ix2 (0 : Fin 2) j ∉ rs1.set := fun h =>
  absurd (show (1 : ℕ) ≤ 0 from (Rect.mem_set_unit.mp h 0).1) (by decide)

theorem ld_rs0 (st : Vec Ideal S2x256 .f32) (j : Fin 256) :
    View.ld st rs0 (ix2 (0 : Fin 1) j) = st (ix2 (0 : Fin 2) j) :=
  congrArg st (rs0_emb j)

theorem ld_rs1 (st : Vec Ideal S2x256 .f32) (j : Fin 256) :
    View.ld st rs1 (ix2 (0 : Fin 1) j) = st (ix2 (1 : Fin 2) j) :=
  congrArg st (rs1_emb j)

/-- A two-row buffer written one row at a time reads back each row. -/
theorem twoRows (p1 p0 : Vec Ideal S1x256 .f32) (j : Fin 256) :
    View.canon [⟨rs1, p1⟩, ⟨rs0, p0⟩] (ix2 (1 : Fin 2) j) = p1 (ix2 (0 : Fin 1) j)
      ∧ View.canon [⟨rs1, p1⟩, ⟨rs0, p0⟩] (ix2 (0 : Fin 2) j) = p0 (ix2 (0 : Fin 1) j) := by
  constructor
  · have h := View.canon_cons_emb (Val := Elt Ideal) (e := .f32) rs1 p1 [⟨rs0, p0⟩] (ix2 (0 : Fin 1) j)
    rw [rs1_emb] at h
    exact h
  · have h := View.canon_cons_emb (Val := Elt Ideal) (e := .f32) rs0 p0 [] (ix2 (0 : Fin 1) j)
    rw [rs0_emb] at h
    exact (View.canon_cons_of_not_mem (Val := Elt Ideal) (e := .f32) ⟨rs1, p1⟩ [⟨rs0, p0⟩] (row0_not_mem_rs1 j)).trans h

def extRow (f : Fin 10000 → EReal) (n : ℕ) : EReal := if h : n < 10000 then f ⟨n, h⟩ else 0

theorem extRow_of_lt (f : Fin 10000 → EReal) {n : ℕ} (h : n < 10000) : extRow f n = f ⟨n, h⟩ := dif_pos h

theorem sum_rows_blocks (f : Fin 10000 → EReal) (F : ℕ → Fin 400 → EReal)
    (hF : ∀ (k : ℕ) (hk : k < 25) (r : Fin 400), F k r = f ⟨400 * k + r.val, by have := r.isLt; omega⟩) :
    ∑ k ∈ Finset.range 25, ∑ r : Fin 400, F k r = ∑ i : Fin 10000, f i :=
  calc ∑ k ∈ Finset.range 25, ∑ r : Fin 400, F k r
      = ∑ t : Fin 25, ∑ r : Fin 400, F t.val r := Finset.sum_range fun k => ∑ r : Fin 400, F k r
    _ = ∑ t : Fin 25, ∑ r : Fin 400, extRow f (t.val * 400 + r.val) :=
        Finset.sum_congr rfl fun t _ => Finset.sum_congr rfl fun r _ => by
          have hlt : t.val * 400 + r.val < 10000 := by have := t.isLt; have := r.isLt; omega
          rw [hF t.val t.isLt r, extRow_of_lt f hlt]
          exact congrArg f (Fin.ext (by show 400 * t.val + r.val = t.val * 400 + r.val; omega))
    _ = ∑ i : Fin 10000, extRow f i.val := Cert.Lib.Propagate.sum_blocks_25_400 (extRow f)
    _ = ∑ i : Fin 10000, f i := Finset.sum_congr rfl fun i _ => extRow_of_lt f i.isLt

section

variable (a : ℕ → Vec Ideal S400x10000 .f32) (s : Vec Ideal S10000x256 .bf16) (base : ℕ) (st : ℕ → Vec Ideal S2x256 .f32)
  (h0 : st 0 = stReset (a base) s) (hS : ∀ n, st (n + 1) = stAcc (a (base + (n + 1))) s (st n))

include h0 hS in
theorem stRow0_sum (n : ℕ) (j : Fin 256) :
    st n (ix2 (0 : Fin 2) j) = ∑ k ∈ Finset.range (n + 1), ∑ r : Fin 400, k0_pay21 (a (base + k)) s (ix2 r j) := by
  induction n with
  | zero =>
    rw [h0]; unfold stReset; rw [(twoRows _ _ j).2, pay26_val, pay22_val, Finset.sum_range_one]
    rfl
  | succ n ih =>
    rw [hS]; unfold stAcc; rw [(twoRows _ _ j).2, pay1_acc, ld_rs0, ih, pay22_val, Finset.sum_range_succ _ (n + 1)]

include h0 hS in
theorem stRow1_sum (n : ℕ) (j : Fin 256) :
    st n (ix2 (1 : Fin 2) j)
      = ∑ k ∈ Finset.range (n + 1), ∑ r : Fin 400, k0_pay21 (a (base + k)) s (ix2 r j) * k0_pay21 (a (base + k)) s (ix2 r j) := by
  induction n with
  | zero =>
    rw [h0]; unfold stReset; rw [(twoRows _ _ j).1, pay27_val, pay23_val, Finset.sum_range_one]
    rfl
  | succ n ih =>
    rw [hS]; unfold stAcc; rw [(twoRows _ _ j).1, pay2_acc, ld_rs1, ih, pay23_val, Finset.sum_range_succ _ (n + 1)]

variable (A : Fin 10000 → Fin 10000 → EReal) (S : Fin 10000 → Fin 256 → EReal)
  (hA : ∀ (n : ℕ) (r : Fin 400) (l : Fin 10000), a n (ix2 r l) = A ⟨400 * (n % 25) + r.val, by have := r.isLt; have := Nat.mod_lt n (show 0 < 25 by decide); omega⟩ l)
  (hs : ∀ (l : Fin 10000) (j : Fin 256), s (ix2 l j) = S l j) (hbase : base % 25 = 0)

include hA hs hbase in
theorem blk_val (k : ℕ) (hk : k < 25) (r : Fin 400) (j : Fin 256) :
    k0_pay21 (a (base + k)) s (ix2 r j) = Cert.Spec.mm A S ⟨400 * k + r.val, by have := r.isLt; omega⟩ j := by
  have hm : (base + k) % 25 = k := by omega
  rw [pay21_val]
  unfold Cert.Spec.mm
  refine Finset.sum_congr rfl fun l _ => ?_
  rw [hA, hs]
  exact congrArg (fun i => A i l * S l j) (Fin.ext (by show 400 * ((base + k) % 25) + r.val = 400 * k + r.val; rw [hm]))

include h0 hS hA hs hbase in
theorem stRow0_cs (j : Fin 256) : st 24 (ix2 (0 : Fin 2) j) = Cert.Spec.cs (Cert.Spec.mm A S) j := by
  rw [stRow0_sum a s base st h0 hS 24 j]
  exact sum_rows_blocks (fun i => Cert.Spec.mm A S i j) (fun k r => k0_pay21 (a (base + k)) s (ix2 r j))
    (fun k hk r => blk_val a s base A S hA hs hbase k hk r j)

include h0 hS hA hs hbase in
theorem stRow1_css (j : Fin 256) : st 24 (ix2 (1 : Fin 2) j) = Cert.Spec.css (Cert.Spec.mm A S) j := by
  rw [stRow1_sum a s base st h0 hS 24 j]
  exact sum_rows_blocks (fun i => Cert.Spec.mm A S i j * Cert.Spec.mm A S i j)
    (fun k r => k0_pay21 (a (base + k)) s (ix2 r j) * k0_pay21 (a (base + k)) s (ix2 r j))
    (fun k hk r => by rw [blk_val a s base A S hA hs hbase k hk r j])

end

end Cert.KernelIdeal.Hand

end
-- ==== Proof.KArith.lean ====
import proofs.«112434_g77017353552286_cont_9to1c4b_820_16_alg».proof.Proof.KDefs
import proofs.«112434_g77017353552286_cont_9to1c4b_820_16_alg».proof.Proof.Spec
import proofs.«112434_g77017353552286_cont_9to1c4b_820_16_alg».proof.Proof.KPay
import proofs.«112434_g77017353552286_cont_9to1c4b_820_16_alg».proof.Proof.KStats
import proofs.«112434_g77017353552286_cont_9to1c4b_820_16_alg».proof.Proof.LibPropagate
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx
open Cert.KernelIdeal Cert.KernelIdeal.Gen
open scoped BigOperators

theorem canon_slab_hit (off : ℕ) (inb : ∀ a, (![off, 0] : Fin 2 → ℕ) a + S2000x256.size a ≤ S10000x256.size a)
    (P : Vec Ideal S2000x256 .bf16) (L : List (View.Piece (Elt Ideal) S10000x256 .bf16))
    (l : Fin 10000) (j : Fin 256) (r : Fin 2000) (h : l.val = off + r.val) :
    View.canon ((⟨Rect.unit (s := S10000x256) ![off, 0] S2000x256.size inb, P⟩ : View.Piece (Elt Ideal) S10000x256 .bf16) :: L) (ix2 l j)
      = P (ix2 r j) := by
  have e : ix2 l j = (Rect.unit (s := S10000x256) ![off, 0] S2000x256.size inb).emb (ix2 r j) := by
    funext a; match a with
    | ⟨0, _⟩ => exact Fin.ext (by show l.val = off + 1 * r.val; omega)
    | ⟨1, _⟩ => exact Fin.ext (by show j.val = 0 + 1 * j.val; omega)
  rw [e, View.canon_cons_emb]

theorem canon_slab_miss (off : ℕ) (inb : ∀ a, (![off, 0] : Fin 2 → ℕ) a + S2000x256.size a ≤ S10000x256.size a)
    (P : Vec Ideal S2000x256 .bf16) (L : List (View.Piece (Elt Ideal) S10000x256 .bf16))
    (l : Fin 10000) (j : Fin 256) (h : l.val < off ∨ off + 2000 ≤ l.val) :
    View.canon ((⟨Rect.unit (s := S10000x256) ![off, 0] S2000x256.size inb, P⟩ : View.Piece (Elt Ideal) S10000x256 .bf16) :: L) (ix2 l j)
      = View.canon L (ix2 l j) := by
  refine View.canon_cons_of_not_mem (Val := Elt Ideal) (e := .bf16)
    (⟨Rect.unit (s := S10000x256) ![off, 0] S2000x256.size inb, P⟩ : View.Piece (Elt Ideal) S10000x256 .bf16) L ?_
  rw [Rect.mem_set_unit]
  intro hm
  have h0 : off ≤ l.val ∧ l.val < off + 2000 := hm 0
  omega

theorem slabs_val (P0 P1 P2 P3 P4 : Vec Ideal S2000x256 .bf16) (G : Fin 10000 → Fin 256 → EReal)
    (h0 : ∀ (r : Fin 2000) (j : Fin 256), P0 (ix2 r j) = G ⟨0 + r.val, by omega⟩ j)
    (h1 : ∀ (r : Fin 2000) (j : Fin 256), P1 (ix2 r j) = G ⟨2000 + r.val, by omega⟩ j)
    (h2 : ∀ (r : Fin 2000) (j : Fin 256), P2 (ix2 r j) = G ⟨4000 + r.val, by omega⟩ j)
    (h3 : ∀ (r : Fin 2000) (j : Fin 256), P3 (ix2 r j) = G ⟨6000 + r.val, by omega⟩ j)
    (h4 : ∀ (r : Fin 2000) (j : Fin 256), P4 (ix2 r j) = G ⟨8000 + r.val, by omega⟩ j)
    (l : Fin 10000) (j : Fin 256) :
    View.canon ([⟨rc4, P4⟩, ⟨rc3, P3⟩, ⟨rc2, P2⟩, ⟨rc1, P1⟩, ⟨rc0, P0⟩] : List (View.Piece (Elt Ideal) S10000x256 .bf16)) (ix2 l j) = G l j := by
  have hl := l.isLt
  by_cases c4 : 8000 ≤ l.val
  · rw [canon_slab_hit 8000 _ P4 _ l j ⟨l.val - 8000, by omega⟩ (by show l.val = 8000 + (l.val - 8000); omega), h4]
    exact congrArg (fun i => G i j) (Fin.ext (by show 8000 + (l.val - 8000) = l.val; omega))
  rw [canon_slab_miss 8000 _ P4 _ l j (by omega)]
  by_cases c3 : 6000 ≤ l.val
  · rw [canon_slab_hit 6000 _ P3 _ l j ⟨l.val - 6000, by omega⟩ (by show l.val = 6000 + (l.val - 6000); omega), h3]
    exact congrArg (fun i => G i j) (Fin.ext (by show 6000 + (l.val - 6000) = l.val; omega))
  rw [canon_slab_miss 6000 _ P3 _ l j (by omega)]
  by_cases c2 : 4000 ≤ l.val
  · rw [canon_slab_hit 4000 _ P2 _ l j ⟨l.val - 4000, by omega⟩ (by show l.val = 4000 + (l.val - 4000); omega), h2]
    exact congrArg (fun i => G i j) (Fin.ext (by show 4000 + (l.val - 4000) = l.val; omega))
  rw [canon_slab_miss 4000 _ P2 _ l j (by omega)]
  by_cases c1 : 2000 ≤ l.val
  · rw [canon_slab_hit 2000 _ P1 _ l j ⟨l.val - 2000, by omega⟩ (by show l.val = 2000 + (l.val - 2000); omega), h1]
    exact congrArg (fun i => G i j) (Fin.ext (by show 2000 + (l.val - 2000) = l.val; omega))
  rw [canon_slab_miss 2000 _ P1 _ l j (by omega)]
  rw [canon_slab_hit 0 _ P0 _ l j ⟨l.val, by omega⟩ (by show l.val = 0 + l.val; omega), h0]
  exact congrArg (fun i => G i j) (Fin.ext (by show 0 + l.val = l.val; omega))

theorem ld_slab {e : EltTy} (off : ℕ) (inb : ∀ a, (![off, 0] : Fin 2 → ℕ) a + S2000x256.size a ≤ S10000x256.size a)
    (X : Vec Ideal S10000x256 e) (r : Fin 2000) (k : Fin 256) :
    View.ld X (Rect.unit (s := S10000x256) ![off, 0] S2000x256.size inb) (ix2 r k)
      = X (ix2 (⟨off + r.val, by have := inb 0; have h : off + 2000 ≤ 10000 := this; omega⟩ : Fin 10000) k) := by
  show X _ = X _
  refine congrArg X ?_
  funext a; match a with
  | ⟨0, _⟩ => exact Fin.ext (by show off + 1 * r.val = off + r.val; omega)
  | ⟨1, _⟩ => exact Fin.ext (by show 0 + 1 * k.val = k.val; omega)

abbrev row (v : Vec Ideal S1x256 .f32) : Fin 256 → EReal := fun j => v (ix2 (0 : Fin 1) j)

theorem slab1_val (off : ℕ) (inb : ∀ a, (![off, 0] : Fin 2 → ℕ) a + S2000x256.size a ≤ S10000x256.size a)
    (x : Vec Ideal S10000x256 .f32) (w1 : Vec Ideal S256x256 .f32)
    (pay : Vec Ideal S2000x256 .f32 → Vec Ideal S256x256 .f32 → FVec Ideal S2000x256 .bf16)
    (hpay : ∀ (xs : Vec Ideal S2000x256 .f32) (w : Vec Ideal S256x256 .f32) (r : Fin 2000) (j : Fin 256),
      pay xs w (ix2 r j) = ∑ k : Fin 256, xs (ix2 r k) * w (ix2 k j))
    (r : Fin 2000) (j : Fin 256) :
    pay (View.ld x (Rect.unit (s := S10000x256) ![off, 0] S2000x256.size inb)) w1 (ix2 r j)
      = Spec.mm (Spec.m2 x) (Spec.m2 w1) ⟨off + r.val, by have := inb 0; have h : off + 2000 ≤ 10000 := this; omega⟩ j := by
  rw [hpay]
  exact Finset.sum_congr rfl fun k _ => by rw [ld_slab]

theorem supp1_val (x : Vec Ideal S10000x256 .f32) (w1 : Vec Ideal S256x256 .f32) (l : Fin 10000) (j : Fin 256) :
    supp1 x w1 (ix2 l j) = Spec.mm (Spec.m2 x) (Spec.m2 w1) l j := by
  unfold supp1
  exact slabs_val _ _ _ _ _ (Spec.mm (Spec.m2 x) (Spec.m2 w1))
    (slab1_val 0 _ x w1 (k0_pay7 (F := Ideal)) pay7_val) (slab1_val 2000 _ x w1 (k0_pay8 (F := Ideal)) pay7_val)
    (slab1_val 4000 _ x w1 (k0_pay9 (F := Ideal)) pay7_val) (slab1_val 6000 _ x w1 (k0_pay10 (F := Ideal)) pay7_val)
    (slab1_val 8000 _ x w1 (k0_pay19 (F := Ideal)) pay7_val) l j

theorem sc1_row (b g : Vec Ideal S1x256 .f32) (st : Vec Ideal S2x256 .f32) (k : Fin 256) :
    sc1 b g st (ix2 (0 : Fin 1) k)
      = scRow (st (ix2 (0 : Fin 2) k)) (st (ix2 (1 : Fin 2) k)) (b (ix2 (0 : Fin 1) k)) (g (ix2 (0 : Fin 1) k)) := by
  unfold sc1
  rw [pay13_val, ld_rs0, ld_rs1]

theorem sh1_row (b g be : Vec Ideal S1x256 .f32) (st : Vec Ideal S2x256 .f32) (k : Fin 256) :
    sh1 b g be st (ix2 (0 : Fin 1) k)
      = shRow (st (ix2 (0 : Fin 2) k)) (st (ix2 (1 : Fin 2) k)) (b (ix2 (0 : Fin 1) k)) (g (ix2 (0 : Fin 1) k)) (be (ix2 (0 : Fin 1) k)) := by
  unfold sh1
  rw [pay14_val, ld_rs0, ld_rs1]

theorem bn_term (HR : Fin 10000 → Fin 256 → EReal) (h1 : Vec Ideal S10000x256 .bf16) (st : Vec Ideal S2x256 .f32)
    (b g be : Vec Ideal S1x256 .f32)
    (hh : ∀ (l : Fin 10000) (k : Fin 256), h1 (ix2 l k) = HR l k)
    (hst0 : ∀ k : Fin 256, st (ix2 (0 : Fin 2) k) = Spec.cs HR k) (hst1 : ∀ k : Fin 256, st (ix2 (1 : Fin 2) k) = Spec.css HR k)
    (i : Fin 10000) (k : Fin 256) :
    h1 (ix2 i k) * scRow (st (ix2 (0 : Fin 2) k)) (st (ix2 (1 : Fin 2) k)) (b (ix2 (0 : Fin 1) k)) (g (ix2 (0 : Fin 1) k))
        + shRow (st (ix2 (0 : Fin 2) k)) (st (ix2 (1 : Fin 2) k)) (b (ix2 (0 : Fin 1) k)) (g (ix2 (0 : Fin 1) k)) (be (ix2 (0 : Fin 1) k))
      = Spec.bnKer HR (row b) (row g) (row be) i k := by
  show _ = HR i k * Spec.scK HR (row b) (row g) k + Spec.shK HR (row b) (row g) (row be) k
  rw [scK_eq, shK_eq, hh, hst0, hst1]

theorem slab2_val (off : ℕ) (inb : ∀ a, (![off, 0] : Fin 2 → ℕ) a + S2000x256.size a ≤ S10000x256.size a)
    (pay : FVec Ideal S1x256 .f32 → FVec Ideal S1x256 .f32 → Vec Ideal S2000x256 .bf16 → Vec Ideal S256x256 .f32 → FVec Ideal S2000x256 .bf16)
    (hpay : ∀ (sc sh : FVec Ideal S1x256 .f32) (hs : Vec Ideal S2000x256 .bf16) (w : Vec Ideal S256x256 .f32) (r : Fin 2000) (j : Fin 256),
      pay sc sh hs w (ix2 r j) = ∑ k : Fin 256, (hs (ix2 r k) * sc (ix2 (0 : Fin 1) k) + sh (ix2 (0 : Fin 1) k)) * w (ix2 k j))
    (HR : Fin 10000 → Fin 256 → EReal) (h1 : Vec Ideal S10000x256 .bf16) (st : Vec Ideal S2x256 .f32)
    (b g be : Vec Ideal S1x256 .f32) (w2 : Vec Ideal S256x256 .f32)
    (hh : ∀ (l : Fin 10000) (k : Fin 256), h1 (ix2 l k) = HR l k)
    (hst0 : ∀ k : Fin 256, st (ix2 (0 : Fin 2) k) = Spec.cs HR k) (hst1 : ∀ k : Fin 256, st (ix2 (1 : Fin 2) k) = Spec.css HR k)
    (r : Fin 2000) (j : Fin 256) :
    pay (sc1 b g st) (sh1 b g be st) (View.ld h1 (Rect.unit (s := S10000x256) ![off, 0] S2000x256.size inb)) w2 (ix2 r j)
      = Spec.mm (Spec.bnKer HR (row b) (row g) (row be)) (Spec.m2 w2)
          ⟨off + r.val, by have := inb 0; have h : off + 2000 ≤ 10000 := this; omega⟩ j := by
  rw [hpay]
  refine Finset.sum_congr rfl fun k _ => ?_
  rw [ld_slab, sc1_row, sh1_row, bn_term HR h1 st b g be hh hst0 hst1]

theorem slab2_val0 (HR : Fin 10000 → Fin 256 → EReal) (h1 : Vec Ideal S10000x256 .bf16) (st : Vec Ideal S2x256 .f32)
    (b g be : Vec Ideal S1x256 .f32) (w2 : Vec Ideal S256x256 .f32)
    (hh : ∀ (l : Fin 10000) (k : Fin 256), h1 (ix2 l k) = HR l k)
    (hst0 : ∀ k : Fin 256, st (ix2 (0 : Fin 2) k) = Spec.cs HR k) (hst1 : ∀ k : Fin 256, st (ix2 (1 : Fin 2) k) = Spec.css HR k)
    (r : Fin 2000) (j : Fin 256) :
    k0_pay15 (Scalar.ofBits .f32 0x461C4000#32) b g be (View.ld st rs0) (View.ld st rs1) (View.ld h1 rc0) w2 (ix2 r j)
      = Spec.mm (Spec.bnKer HR (row b) (row g) (row be)) (Spec.m2 w2) ⟨0 + r.val, by have := r.isLt; omega⟩ j := by
  rw [pay15_val]
  refine Finset.sum_congr rfl fun k _ => ?_
  rw [ld_slab, ld_rs0, ld_rs1, bn_term HR h1 st b g be hh hst0 hst1]

theorem supp2_val (HR : Fin 10000 → Fin 256 → EReal) (h1 : Vec Ideal S10000x256 .bf16) (st : Vec Ideal S2x256 .f32)
    (b g be : Vec Ideal S1x256 .f32) (w2 : Vec Ideal S256x256 .f32)
    (hh : ∀ (l : Fin 10000) (k : Fin 256), h1 (ix2 l k) = HR l k)
    (hst0 : ∀ k : Fin 256, st (ix2 (0 : Fin 2) k) = Spec.cs HR k) (hst1 : ∀ k : Fin 256, st (ix2 (1 : Fin 2) k) = Spec.css HR k)
    (l : Fin 10000) (j : Fin 256) :
    supp2 b g be st h1 w2 (ix2 l j) = Spec.mm (Spec.bnKer HR (row b) (row g) (row be)) (Spec.m2 w2) l j := by
  unfold supp2
  exact slabs_val _ _ _ _ _ (Spec.mm (Spec.bnKer HR (row b) (row g) (row be)) (Spec.m2 w2))
    (slab2_val0 HR h1 st b g be w2 hh hst0 hst1)
    (slab2_val 2000 _ (k0_pay16 (F := Ideal)) pay16_val HR h1 st b g be w2 hh hst0 hst1)
    (slab2_val 4000 _ (k0_pay17 (F := Ideal)) pay16_val HR h1 st b g be w2 hh hst0 hst1)
    (slab2_val 6000 _ (k0_pay18 (F := Ideal)) pay16_val HR h1 st b g be w2 hh hst0 hst1)
    (slab2_val 8000 _ (k0_pay20 (F := Ideal)) pay16_val HR h1 st b g be w2 hh hst0 hst1) l j

section

variable (a : ℕ → Vec Ideal S400x10000 .f32) (x : Vec Ideal S10000x256 .f32) (w1 w2 : Vec Ideal S256x256 .f32) (b1 g1 be1 b2 g2 be2 : Vec Ideal S1x256 .f32)
    (A : Fin 10000 → Fin 10000 → EReal)
    (hA : ∀ (n : ℕ) (r : Fin 400) (l : Fin 10000), a n (ix2 r l) = A ⟨400 * (n % 25) + r.val, by have := r.isLt; have := Nat.mod_lt n (show 0 < 25 by decide); omega⟩ l)

include hA in

theorem h1A_val (l : Fin 10000) (j : Fin 256) :
    h1A_ a x w1 (ix2 l j) = Cert.Spec.raw A (Cert.Spec.m2 x) (Cert.Spec.m2 w1) l j := by
  have hl := l.isLt
  show k0_pay24 (a (l.val / 400)) (supp1 x w1) (ix2 (⟨l.val % 400, Nat.mod_lt _ (by decide)⟩ : Fin 400) (⟨j.val, j.isLt⟩ : Fin 256)) = _
  rw [pay24_val, pay21_val]
  show _ = ∑ i : Fin 10000, A l i * Cert.Spec.mm (Cert.Spec.m2 x) (Cert.Spec.m2 w1) i j
  refine Finset.sum_congr rfl fun i _ => ?_
  rw [hA, supp1_val]
  exact congrArg (fun t => A t i * Cert.Spec.mm (Cert.Spec.m2 x) (Cert.Spec.m2 w1) i j)
    (Fin.ext (by show 400 * (l.val / 400 % 25) + l.val % 400 = l.val; omega))

include hA in

theorem stA_cs (k : Fin 256) :
    stA_ a x w1 24 (ix2 (0 : Fin 2) k) = Cert.Spec.cs (Cert.Spec.raw A (Cert.Spec.m2 x) (Cert.Spec.m2 w1)) k :=
  stRow0_cs a (supp1 x w1) 0 (stA_ a x w1) rfl (fun n => by rw [Nat.zero_add]; rfl) A
    (Cert.Spec.mm (Cert.Spec.m2 x) (Cert.Spec.m2 w1)) hA (supp1_val x w1) rfl k

include hA in

theorem stA_css (k : Fin 256) :
    stA_ a x w1 24 (ix2 (1 : Fin 2) k) = Cert.Spec.css (Cert.Spec.raw A (Cert.Spec.m2 x) (Cert.Spec.m2 w1)) k :=
  stRow1_css a (supp1 x w1) 0 (stA_ a x w1) rfl (fun n => by rw [Nat.zero_add]; rfl) A
    (Cert.Spec.mm (Cert.Spec.m2 x) (Cert.Spec.m2 w1)) hA (supp1_val x w1) rfl k

include hA in

theorem suppB_val (l : Fin 10000) (j : Fin 256) :
    suppB_ a x w1 w2 b1 g1 be1 (ix2 l j)
      = Cert.Spec.mm (Cert.Spec.h1Ker (Cert.Spec.m2 x) A (Cert.Spec.m2 w1) (row b1) (row g1) (row be1)) (Cert.Spec.m2 w2) l j := by
  unfold suppB_
  exact supp2_val (Cert.Spec.raw A (Cert.Spec.m2 x) (Cert.Spec.m2 w1)) (h1A_ a x w1) (stA_ a x w1 24) b1 g1 be1 w2
    (h1A_val a x w1 A hA) (stA_cs a x w1 A hA) (stA_css a x w1 A hA) l j

end

end Cert.KernelIdeal.Hand

end
-- ==== Proof.KArithB.lean ====
import proofs.«112434_g77017353552286_cont_9to1c4b_820_16_alg».proof.Proof.KArith

noncomputable section

namespace Cert.KernelIdeal.Hand

open Idealize.ShloMosaic Idealize.ShloMosaic.ValueIdx
open Cert.KernelIdeal Cert.KernelIdeal.Gen
open scoped BigOperators

section

variable (a : ℕ → Vec Ideal S400x10000 .f32) (x : Vec Ideal S10000x256 .f32) (w1 w2 : Vec Ideal S256x256 .f32) (b1 g1 be1 b2 g2 be2 : Vec Ideal S1x256 .f32)
    (A : Fin 10000 → Fin 10000 → EReal)
    (hA : ∀ (n : ℕ) (r : Fin 400) (l : Fin 10000), a n (ix2 r l) = A ⟨400 * (n % 25) + r.val, by have := r.isLt; have := Nat.mod_lt n (show 0 < 25 by decide); omega⟩ l)

include hA in

theorem h2Blk_val (k : Fin 25) (r : Fin 400) (j : Fin 256) :
    h2Blk_ a x w1 w2 b1 g1 be1 (25 + k.val) (ix2 r j)
      = Cert.Spec.raw A (Cert.Spec.h1Ker (Cert.Spec.m2 x) A (Cert.Spec.m2 w1) (row b1) (row g1) (row be1)) (Cert.Spec.m2 w2) ⟨400 * k.val + r.val, by omega⟩ j := by
  unfold h2Blk_
  rw [pay25_val]
  exact blk_val a (suppB_ a x w1 w2 b1 g1 be1) 25 A
    (Cert.Spec.mm (Cert.Spec.h1Ker (Cert.Spec.m2 x) A (Cert.Spec.m2 w1) (row b1) (row g1) (row be1)) (Cert.Spec.m2 w2)) hA
    (suppB_val a x w1 w2 b1 g1 be1 A hA) rfl k.val k.isLt r j

include hA in

theorem stB_cs (k : Fin 256) :
    stB_ a x w1 w2 b1 g1 be1 24 (ix2 (0 : Fin 2) k)
      = Cert.Spec.cs (Cert.Spec.raw A (Cert.Spec.h1Ker (Cert.Spec.m2 x) A (Cert.Spec.m2 w1) (row b1) (row g1) (row be1)) (Cert.Spec.m2 w2)) k :=
  stRow0_cs a (suppB_ a x w1 w2 b1 g1 be1) 25 (stB_ a x w1 w2 b1 g1 be1) rfl (fun n => rfl) A
    (Cert.Spec.mm (Cert.Spec.h1Ker (Cert.Spec.m2 x) A (Cert.Spec.m2 w1) (row b1) (row g1) (row be1)) (Cert.Spec.m2 w2)) hA
    (suppB_val a x w1 w2 b1 g1 be1 A hA) rfl k

include hA in

theorem stB_css (k : Fin 256) :
    stB_ a x w1 w2 b1 g1 be1 24 (ix2 (1 : Fin 2) k)
      = Cert.Spec.css (Cert.Spec.raw A (Cert.Spec.h1Ker (Cert.Spec.m2 x) A (Cert.Spec.m2 w1) (row b1) (row g1) (row be1)) (Cert.Spec.m2 w2)) k :=
  stRow1_css a (suppB_ a x w1 w2 b1 g1 be1) 25 (stB_ a x w1 w2 b1 g1 be1) rfl (fun n => rfl) A
    (Cert.Spec.mm (Cert.Spec.h1Ker (Cert.Spec.m2 x) A (Cert.Spec.m2 w1) (row b1) (row g1) (row be1)) (Cert.Spec.m2 w2)) hA
    (suppB_val a x w1 w2 b1 g1 be1 A hA) rfl k

include hA in

theorem coefB_val0 (j : Fin 256) : coefB_ a x w1 w2 b1 g1 be1 b2 g2 be2 (ix2 (0 : Fin 2) j)
        = Cert.Spec.scK (Cert.Spec.raw A (Cert.Spec.h1Ker (Cert.Spec.m2 x) A (Cert.Spec.m2 w1) (row b1) (row g1) (row be1)) (Cert.Spec.m2 w2)) (row b2) (row g2) j := by
  unfold coefB_ coefOf
  rw [(twoRows _ _ j).2, pay5_val, ld_rs0, ld_rs1, stB_cs a x w1 w2 b1 g1 be1 A hA, stB_css a x w1 w2 b1 g1 be1 A hA, scK_eq]

include hA in

theorem coefB_val1 (j : Fin 256) : coefB_ a x w1 w2 b1 g1 be1 b2 g2 be2 (ix2 (1 : Fin 2) j)
        = Cert.Spec.shK (Cert.Spec.raw A (Cert.Spec.h1Ker (Cert.Spec.m2 x) A (Cert.Spec.m2 w1) (row b1) (row g1) (row be1)) (Cert.Spec.m2 w2)) (row b2) (row g2) (row be2) j := by
  unfold coefB_ coefOf
  rw [(twoRows _ _ j).1, pay6_val, ld_rs0, ld_rs1, stB_cs a x w1 w2 b1 g1 be1 A hA, stB_css a x w1 w2 b1 g1 be1 A hA, shK_eq]

end

end Cert.KernelIdeal.Hand

end
-- ==== Proof.KValue.lean ====
import proofs.«112434_g77017353552286_cont_9to1c4b_820_16_alg».proof.Proof.KRun
import proofs.«112434_g77017353552286_cont_9to1c4b_820_16_alg».proof.Proof.KPay
import proofs.«112434_g77017353552286_cont_9to1c4b_820_16_alg».proof.Proof.KCover
import proofs.«112434_g77017353552286_cont_9to1c4b_820_16_alg».proof.Proof.KCover0
import proofs.«112434_g77017353552286_cont_9to1c4b_820_16_alg».proof.Proof.KArithB
import proofs.«112434_g77017353552286_cont_9to1c4b_820_16_alg».proof.Proof.Spec
import Idealize.ShloMosaic.Lib.Pipeline.Value
import Idealize.ShloMosaic.Lib.ValueIdx

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

section Unfold

variable {F : FTy → Type} [FloatOps F]
variable (V : (c : Dev nD) → (b : Ref sig .tc) → Buf (Elt F) ((c : Thread nD τ).loc b)) (c : Dev nD)

theorem h2Blk_pt (n : ℕ) : h2Blk V c (pt n)
    = h2Blk_ (aAt V c) (xB V c (pt 0)) (w1B V c (pt 0)) (w2B V c (pt 25)) (b1B V c (pt 25)) (g1B V c (pt 25)) (be1B V c (pt 25)) n := rfl

theorem coefB_pure : coefB V c
    = coefB_ (aAt V c) (xB V c (pt 0)) (w1B V c (pt 0)) (w2B V c (pt 25)) (b1B V c (pt 25)) (g1B V c (pt 25)) (be1B V c (pt 25))
        (b2B V c (pt 49)) (g2B V c (pt 49)) (be2B V c (pt 49)) := rfl

end Unfold

section Value

open Cert.Spec

variable (m : (ℓ : Loc nD τ sig) → Buf (Elt Ideal) ℓ) (c : Dev nD)

theorem aAt_val (n : ℕ) (r : Fin 400) (l : Fin 10000) :
    aAt (V1 m) c n (ix2 r l) = m2 (m ((c.tc : Thread nD τ).loc main_arg1)) ⟨400 * (n % 25) + r.val, by omega⟩ l := by
  have hp : pt n = pt (n % 50) := Fin.ext (by show n % 50 = n % 50 % 50; rw [Nat.mod_mod])
  show adjB (V1 m) c (pt n) (ix2 r l) = _
  rw [hp, adjB_val m c (n % 50) (Nat.mod_lt _ (by decide)) r l]
  refine congrArg (fun q : Fin 10000 => (m ((c.tc : Thread nD τ).loc main_arg1) : S10000x10000.Idx → EReal) (ix2 q l)) (Fin.ext ?_)
  show 400 * (n % 50 % 25) + r.val = 400 * (n % 25) + r.val
  omega

theorem row_b1 (t : Fin cfg0.N) : row (b1B (V1 m) c t) = m1 (m ((c.tc : Thread nD τ).loc main_arg3)) := funext fun j => b1B_val m c t j
theorem row_g1 (t : Fin cfg0.N) : row (g1B (V1 m) c t) = m1 (m ((c.tc : Thread nD τ).loc main_arg4)) := funext fun j => g1B_val m c t j
theorem row_be1 (t : Fin cfg0.N) : row (be1B (V1 m) c t) = m1 (m ((c.tc : Thread nD τ).loc main_arg5)) := funext fun j => be1B_val m c t j
theorem row_b2 (t : Fin cfg0.N) : row (b2B (V1 m) c t) = m1 (m ((c.tc : Thread nD τ).loc main_arg7)) := funext fun j => b2B_val m c t j
theorem row_g2 (t : Fin cfg0.N) : row (g2B (V1 m) c t) = m1 (m ((c.tc : Thread nD τ).loc main_arg8)) := funext fun j => g2B_val m c t j
theorem row_be2 (t : Fin cfg0.N) : row (be2B (V1 m) c t) = m1 (m ((c.tc : Thread nD τ).loc main_arg9)) := funext fun j => be2B_val m c t j

abbrev hr2 : Fin 10000 → Fin 256 → EReal :=
  raw (m2 (m ((c.tc : Thread nD τ).loc main_arg1)))
    (h1Ker (m2 (m ((c.tc : Thread nD τ).loc main_arg0))) (m2 (m ((c.tc : Thread nD τ).loc main_arg1))) (m2 (m ((c.tc : Thread nD τ).loc main_arg2)))
      (m1 (m ((c.tc : Thread nD τ).loc main_arg3))) (m1 (m ((c.tc : Thread nD τ).loc main_arg4))) (m1 (m ((c.tc : Thread nD τ).loc main_arg5))))
    (m2 (m ((c.tc : Thread nD τ).loc main_arg6)))

theorem v6_0_val (k : Fin 25) (r : Fin 400) (j : Fin 256) :
    (V2 m c main_v6_0 : S10000x256.Idx → EReal) (ix2 (⟨400 * k.val + r.val, by omega⟩ : Fin 10000) j) = hr2 m c ⟨400 * k.val + r.val, by omega⟩ j := by
  show W2 m c (Proc.devRef .tc main_v6_0) _ = _
  rw [W2_v6_0 m c, arr10_val (V1 m) c k r j, h2Blk_pt,
    h2Blk_val _ _ _ _ _ _ _ (m2 (m ((c.tc : Thread nD τ).loc main_arg1))) (aAt_val m c) k r j,
    xB_val, w1B_val, w2B_val, row_b1, row_g1, row_be1]

theorem v6_1_val0 (j : Fin 256) :
    (V2 m c main_v6_1 : S2x256.Idx → EReal) (ix2 (0 : Fin 2) j)
      = scK (hr2 m c) (m1 (m ((c.tc : Thread nD τ).loc main_arg7))) (m1 (m ((c.tc : Thread nD τ).loc main_arg8))) j := by
  show W2 m c (Proc.devRef .tc main_v6_1) _ = _
  rw [W2_v6_1 m c, arr11_val (V1 m) c, coefB_pure,
    coefB_val0 _ _ _ _ _ _ _ _ _ _ (m2 (m ((c.tc : Thread nD τ).loc main_arg1))) (aAt_val m c) j,
    xB_val, w1B_val, w2B_val, row_b1, row_g1, row_be1, row_b2, row_g2]
theorem v6_1_val1 (j : Fin 256) :
    (V2 m c main_v6_1 : S2x256.Idx → EReal) (ix2 (1 : Fin 2) j)
      = shK (hr2 m c) (m1 (m ((c.tc : Thread nD τ).loc main_arg7))) (m1 (m ((c.tc : Thread nD τ).loc main_arg8))) (m1 (m ((c.tc : Thread nD τ).loc main_arg9))) j := by
  show W2 m c (Proc.devRef .tc main_v6_1) _ = _
  rw [W2_v6_1 m c, arr11_val (V1 m) c, coefB_pure,
    coefB_val1 _ _ _ _ _ _ _ _ _ _ (m2 (m ((c.tc : Thread nD τ).loc main_arg1))) (aAt_val m c) j,
    xB_val, w1B_val, w2B_val, row_b1, row_g1, row_be1, row_b2, row_g2, row_be2]

theorem out_at (k1 : Fin 5) (r1 : Fin 2000) (k0 : Fin 25) (r0 : Fin 400) (j : Fin 256)
    (h : 2000 * k1.val + r1.val = 400 * k0.val + r0.val) :
    (dat1 (V2 m) c).arrAt 2 cfg1.N (ix2 (⟨2000 * k1.val + r1.val, by omega⟩ : Fin 10000) j)
      = Ideal.tanh (bnKer (hr2 m c) (m1 (m ((c.tc : Thread nD τ).loc main_arg7))) (m1 (m ((c.tc : Thread nD τ).loc main_arg8)))
          (m1 (m ((c.tc : Thread nD τ).loc main_arg9))) ⟨400 * k0.val + r0.val, by omega⟩ j) := by
  have ei : (⟨2000 * k1.val + r1.val, by omega⟩ : Fin 10000) = ⟨400 * k0.val + r0.val, by omega⟩ := Fin.ext h
  rw [arr1_val (V2 m) c k1 r1 j, pay1_val, rows2000_apply, coefRow0_apply, coefRow1_apply, ei,
    v6_0_val m c k0 r0 j, v6_1_val0 m c j, v6_1_val1 m c j]
  rfl

/-- The result as one function of the ten argument arrays. -/
def kerOut :=
  a2 (outKer (m2 (m ((c.tc : Thread nD τ).loc main_arg0))) (m2 (m ((c.tc : Thread nD τ).loc main_arg1)))
        (m2 (m ((c.tc : Thread nD τ).loc main_arg2))) (m1 (m ((c.tc : Thread nD τ).loc main_arg3)))
        (m1 (m ((c.tc : Thread nD τ).loc main_arg4))) (m1 (m ((c.tc : Thread nD τ).loc main_arg5)))
        (m2 (m ((c.tc : Thread nD τ).loc main_arg6))) (m1 (m ((c.tc : Thread nD τ).loc main_arg7)))
        (m1 (m ((c.tc : Thread nD τ).loc main_arg8))) (m1 (m ((c.tc : Thread nD τ).loc main_arg9))))

theorem W3_value : W3 m c (Proc.devRef .tc main_v7)
    = kerOut m c := by
  rw [W3_v7 m c]
  funext y
  have hy := idx2_lt0 y
  have key := out_at m c ⟨(y 0).val / 2000, by omega⟩ ⟨(y 0).val % 2000, Nat.mod_lt _ (by decide)⟩
    ⟨(y 0).val / 400, by omega⟩ ⟨(y 0).val % 400, Nat.mod_lt _ (by decide)⟩ (y 1)
    (by show 2000 * ((y 0).val / 2000) + (y 0).val % 2000 = 400 * ((y 0).val / 400) + (y 0).val % 400; omega)
  have e1 : y = ix2 (⟨2000 * ((y 0).val / 2000) + (y 0).val % 2000, by omega⟩ : Fin 10000) (y 1) := by
    funext a
    match a with
    | ⟨0, _⟩ => exact Fin.ext (by show (y 0).val = 2000 * ((y 0).val / 2000) + (y 0).val % 2000; omega)
    | ⟨1, _⟩ => rfl
  have e2 : (⟨400 * ((y 0).val / 400) + (y 0).val % 400, by omega⟩ : Fin 10000) = y 0 :=
    Fin.ext (by show 400 * ((y 0).val / 400) + (y 0).val % 400 = (y 0).val; omega)
  refine (congrArg ((dat1 (V2 m) c).arrAt 2 cfg1.N) e1).trans (key.trans ?_)
  rw [e2]
  rfl

end Value

section Run

open Cert.Spec

variable (m : (ℓ : Loc nD τ sig) → Buf (Elt Ideal) ℓ)

theorem run_spec (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = kerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (W3_value m c), (h c).2⟩) (run_main (F := Ideal) m ρ)

end Run

end Cert.KernelIdeal.Hand

end
-- ==== Proof.BDefs.lean ====
import proofs.«112434_g77017353552286_cont_9to1c4b_820_16_alg».proof.Proof.Gen.Kernel.Skeleton
import proofs.«112434_g77017353552286_cont_9to1c4b_820_16_alg».proof.Proof.Gen.Kernel.Launch
import proofs.«112434_g77017353552286_cont_9to1c4b_820_16_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.ValueIdx

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev rc0 : Rect S10000x256 := Rect.unit (s := S10000x256) ![0, 0] S2000x256.size inb_S10000x256_S2000x256_0_0
abbrev rc1 : Rect S10000x256 := Rect.unit (s := S10000x256) ![2000, 0] S2000x256.size inb_S10000x256_S2000x256_2000_0
abbrev rc2 : Rect S10000x256 := Rect.unit (s := S10000x256) ![4000, 0] S2000x256.size inb_S10000x256_S2000x256_4000_0
abbrev rc3 : Rect S10000x256 := Rect.unit (s := S10000x256) ![6000, 0] S2000x256.size inb_S10000x256_S2000x256_6000_0
abbrev rc4 : Rect S10000x256 := Rect.unit (s := S10000x256) ![8000, 0] S2000x256.size inb_S10000x256_S2000x256_8000_0

abbrev rs0 : Rect S2x256 := Rect.unit (s := S2x256) ![0, 0] S1x256.size inb_S2x256_S1x256_0_0
abbrev rs1 : Rect S2x256 := Rect.unit (s := S2x256) ![1, 0] S1x256.size inb_S2x256_S1x256_1_0

section Region0

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

def pt (n : ℕ) : Fin cfg0.N := ⟨n % 50, by rw [show cfg0.N = 50 from N_0]; exact Nat.mod_lt _ (by decide)⟩

abbrev adjB (t : Fin cfg0.N) : Vec F S400x10000 .f32 := iblk0 V c 0 t
abbrev xB (t : Fin cfg0.N) : Vec F S10000x256 .f32 := iblk0 V c 1 t
abbrev w1B (t : Fin cfg0.N) : Vec F S256x256 .f32 := iblk0 V c 2 t
abbrev w2B (t : Fin cfg0.N) : Vec F S256x256 .f32 := iblk0 V c 3 t
abbrev b1B (t : Fin cfg0.N) : Vec F S1x256 .f32 := iblk0 V c 4 t
abbrev b2B (t : Fin cfg0.N) : Vec F S1x256 .f32 := iblk0 V c 5 t
abbrev g1B (t : Fin cfg0.N) : Vec F S1x256 .f32 := iblk0 V c 6 t
abbrev g2B (t : Fin cfg0.N) : Vec F S1x256 .f32 := iblk0 V c 7 t
abbrev be1B (t : Fin cfg0.N) : Vec F S1x256 .f32 := iblk0 V c 8 t
abbrev be2B (t : Fin cfg0.N) : Vec F S1x256 .f32 := iblk0 V c 9 t

end Region0

def supp1 (x : Vec F S10000x256 .f32) (w1 : Vec F S256x256 .f32) : Vec F S10000x256 .bf16 :=
  View.canon [⟨rc4, k0_pay19 (View.ld x rc4) w1⟩, ⟨rc3, k0_pay10 (View.ld x rc3) w1⟩, ⟨rc2, k0_pay9 (View.ld x rc2) w1⟩,
    ⟨rc1, k0_pay8 (View.ld x rc1) w1⟩, ⟨rc0, k0_pay7 (View.ld x rc0) w1⟩]

def stReset (a : Vec F S400x10000 .f32) (s : Vec F S10000x256 .bf16) : Vec F S2x256 .f32 :=
  View.canon [⟨rs1, k0_pay27 a s⟩, ⟨rs0, k0_pay26 a s⟩]

def stAcc (a : Vec F S400x10000 .f32) (s : Vec F S10000x256 .bf16) (st : Vec F S2x256 .f32) : Vec F S2x256 .f32 :=
  View.canon [⟨rs1, k0_pay2 (k0_pay23 a s) (View.ld st rs1)⟩, ⟨rs0, k0_pay1 (k0_pay22 a s) (View.ld st rs0)⟩]

def sc1 (b g : Vec F S1x256 .f32) (st : Vec F S2x256 .f32) : FVec F S1x256 .f32 :=
  k0_pay13 (Scalar.ofBits .f32 0x461C4000#32) b g (View.ld st rs0) (View.ld st rs1)
def sh1 (b g be : Vec F S1x256 .f32) (st : Vec F S2x256 .f32) : FVec F S1x256 .f32 :=
  k0_pay14 (Scalar.ofBits .f32 0x461C4000#32) b g be (View.ld st rs0) (View.ld st rs1)

def supp2 (b g be : Vec F S1x256 .f32) (st : Vec F S2x256 .f32) (h1 : Vec F S10000x256 .bf16) (w2 : Vec F S256x256 .f32) :
    Vec F S10000x256 .bf16 :=
  View.canon [⟨rc4, k0_pay20 (sc1 b g st) (sh1 b g be st) (View.ld h1 rc4) w2⟩,
    ⟨rc3, k0_pay18 (sc1 b g st) (sh1 b g be st) (View.ld h1 rc3) w2⟩,
    ⟨rc2, k0_pay17 (sc1 b g st) (sh1 b g be st) (View.ld h1 rc2) w2⟩,
    ⟨rc1, k0_pay16 (sc1 b g st) (sh1 b g be st) (View.ld h1 rc1) w2⟩,
    ⟨rc0, k0_pay15 (Scalar.ofBits .f32 0x461C4000#32) b g be (View.ld st rs0) (View.ld st rs1) (View.ld h1 rc0) w2⟩]

def coefOf (b g be : Vec F S1x256 .f32) (st : Vec F S2x256 .f32) : Vec F S2x256 .f32 :=
  View.canon [⟨rs1, k0_pay6 b g be (View.ld st rs0) (View.ld st rs1)⟩, ⟨rs0, k0_pay5 b g (View.ld st rs0) (View.ld st rs1)⟩]

section Pure

variable (a : ℕ → Vec F S400x10000 .f32) (x : Vec F S10000x256 .f32) (w1 w2 : Vec F S256x256 .f32)
  (b1 g1 be1 b2 g2 be2 : Vec F S1x256 .f32)

def stA_ : ℕ → Vec F S2x256 .f32
  | 0 => stReset (a 0) (supp1 x w1)
  | n + 1 => stAcc (a (n + 1)) (supp1 x w1) (stA_ n)

def h1A_ : Vec F S10000x256 .bf16 := fun y =>
  k0_pay24 (a ((y 0).val / 400)) (supp1 x w1)
    (ValueIdx.ix2 (⟨(y 0).val % 400, Nat.mod_lt _ (by decide)⟩ : Fin 400) (⟨(y 1).val, (y 1).isLt⟩ : Fin 256))

def suppB_ : Vec F S10000x256 .bf16 := supp2 b1 g1 be1 (stA_ a x w1 24) (h1A_ a x w1) w2

def stB_ : ℕ → Vec F S2x256 .f32
  | 0 => stReset (a 25) (suppB_ a x w1 w2 b1 g1 be1)
  | n + 1 => stAcc (a (25 + (n + 1))) (suppB_ a x w1 w2 b1 g1 be1) (stB_ n)

def h2Blk_ (n : ℕ) : Vec F S400x256 .bf16 := k0_pay25 (a n) (suppB_ a x w1 w2 b1 g1 be1)

def coefB_ : Vec F S2x256 .f32 := coefOf b2 g2 be2 (stB_ a x w1 w2 b1 g1 be1 24)

end Pure

section Region0Data

variable (V : (c : Dev nD) → (b : Ref sig .tc) → Buf (Elt F) ((c : Thread nD τ).loc b)) (c : Dev nD)

abbrev aAt (n : ℕ) : Vec F S400x10000 .f32 := adjB V c (pt n)

def suppA : Vec F S10000x256 .bf16 := supp1 (xB V c (pt 0)) (w1B V c (pt 0))

def stA (n : ℕ) : Vec F S2x256 .f32 := stA_ (aAt V c) (xB V c (pt 0)) (w1B V c (pt 0)) n

def h1A : Vec F S10000x256 .bf16 := h1A_ (aAt V c) (xB V c (pt 0)) (w1B V c (pt 0))

def suppB : Vec F S10000x256 .bf16 :=
  suppB_ (aAt V c) (xB V c (pt 0)) (w1B V c (pt 0)) (w2B V c (pt 25)) (b1B V c (pt 25)) (g1B V c (pt 25)) (be1B V c (pt 25))

def stB (n : ℕ) : Vec F S2x256 .f32 :=
  stB_ (aAt V c) (xB V c (pt 0)) (w1B V c (pt 0)) (w2B V c (pt 25)) (b1B V c (pt 25)) (g1B V c (pt 25)) (be1B V c (pt 25)) n

def h2Blk (t : Fin cfg0.N) : Vec F S400x256 .bf16 := k0_pay25 (adjB V c t) (suppB V c)

def coefB : Vec F S2x256 .f32 := coefOf (b2B V c (pt 49)) (g2B V c (pt 49)) (be2B V c (pt 49)) (stB V c 24)

def suppAt (n : ℕ) : Vec F S10000x256 .bf16 := if n < 25 then suppA V c else suppB V c
def stAt (n : ℕ) : Vec F S2x256 .f32 := if n < 25 then stA V c n else stB V c (n - 25)

def H1Upto (n : ℕ) (f : Vec F S10000x256 .bf16) : Prop := ∀ y : S10000x256.Idx, (y 0).val < 400 * min (n + 1) 25 → f y = h1A V c y

end Region0Data

end Cert.Kernel.Hand

end
-- ==== Proof.BData.lean ====
import proofs.«112434_g77017353552286_cont_9to1c4b_820_16_alg».proof.Proof.BDefs

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev scM14 : Memref sig .tc .vmem S10000x256 .bf16 := Memref.whole cc0_scratch0
abbrev scM15 : Memref sig .tc .vmem S10000x256 .bf16 := Memref.whole cc0_scratch1
abbrev scM16 : Memref sig .tc .vmem S2x256 .f32 := Memref.whole cc0_scratch2

def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

section Region0

variable (V : (c : Dev nD) → (b : Ref sig .tc) → Buf (Elt F) ((c : Thread nD τ).loc b))

def PhiS0 (c : Dev nD) : (n : ℕ) → n ≤ cfg0.N → sProp 𝕄
  | 0, _ => Pipeline.ΦA spec0 c
  | n + 1, _ => iprop(owns (c : Thread nD τ) scM14 fullShare (suppAt V c n)
      ∗ (∃ f, owns (c : Thread nD τ) scM15 fullShare f ∗ ⌜H1Upto V c n f⌝)
      ∗ owns (c : Thread nD τ) scM16 fullShare (stAt V c n)
      ∗ others0 c ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => h2Blk V c t
    | ⟨11, _⟩ => coefB V c
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_10 (c : Dev nD) (t : Fin cfg0.N) : (dat0 V c).after 10 t = h2Blk V c t := by dsimp only [dat0]
theorem after0_11 (c : Dev nD) (t : Fin cfg0.N) : (dat0 V c).after 11 t = coefB V c := by dsimp only [dat0]

end Region0

abbrev r1full : Rect S2000x256 := Rect.unit (s := S2000x256) ![0, 0] S2000x256.size inb_S2000x256_S2000x256_0_0

def out1_2 (x0 : Vec F S2000x256 .bf16) (x1 : Vec F S2x256 .f32) : Vec F S2000x256 .f32 :=
  View.canon [⟨r1full, k1_pay1 (View.ld x0 r1full) (View.ld x1 rs0) (View.ld x1 rs1)⟩]

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

end Region1

section Fold

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b

def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b

end Fold

end Cert.Kernel.Hand

end
-- ==== Proof.BRuns0.lean ====
import proofs.«112434_g77017353552286_cont_9to1c4b_820_16_alg».proof.Proof.BData
import Idealize.ShloMosaic.Lib.Tactic
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond0_1 (i : grid0.Coords) : Prop := Scalar.cmpi .ne (Scalar.extui (Scalar.andi (Scalar.cmpi .eq (BitVec.ofNat 32 (i 0).val) 0#32) (Scalar.cmpi .eq (BitVec.ofNat 32 (i 1).val) 0#32))) 0#32 = 1#1

abbrev cond0_2 (i : grid0.Coords) : Prop := Scalar.cmpi .ne (Scalar.extui (Scalar.andi (Scalar.cmpi .eq (BitVec.ofNat 32 (i 0).val) 1#32) (Scalar.cmpi .eq (BitVec.ofNat 32 (i 1).val) 0#32))) 0#32 = 1#1

abbrev cond0_3 (i : grid0.Coords) : Prop := k0_cond3 i = 1#1

abbrev cond0_4 (i : grid0.Coords) : Prop := k0_cond4 i = 1#1

abbrev cond0_5 (i : grid0.Coords) : Prop := Scalar.cmpi .ne (Scalar.extui (Scalar.cmpi .eq (BitVec.ofNat 32 (i 1).val) 0#32)) 0#32 = 1#1

abbrev cond0_6 (i : grid0.Coords) : Prop := Scalar.cmpi .ne (Scalar.extui (Scalar.cmpi .sgt (BitVec.ofNat 32 (i 1).val) 0#32)) 0#32 = 1#1

abbrev cond0_7 (i : grid0.Coords) : Prop := k0_cond7 i = 1#1

/-- The seven branch conditions in closed form on the point's number n = 25·p + i. -/
theorem hcond0 : ∀ t : Fin cfg0.N, (cond0_1 (grid0.coords t) ↔ t.val = 0) ∧ (cond0_2 (grid0.coords t) ↔ t.val = 25)
    ∧ (cond0_3 (grid0.coords t) ↔ t.val < 25) ∧ (cond0_4 (grid0.coords t) ↔ 25 ≤ t.val) ∧ (cond0_5 (grid0.coords t) ↔ t.val % 25 = 0)
    ∧ (cond0_6 (grid0.coords t) ↔ t.val % 25 ≠ 0) ∧ (cond0_7 (grid0.coords t) ↔ t.val = 49) :=
  (by decide +kernel : ∀ t : Fin grid0.N, _)
theorem coord1_eq : ∀ t : Fin cfg0.N, ((grid0.coords t) 1).val = t.val % 25 :=
  (by decide +kernel : ∀ t : Fin grid0.N, ((grid0.coords t) 1).val = t.val % 25)

theorem liveAt0 : ∀ w : Fin cfg0.W, w.val < 10 → ∀ t : Fin cfg0.N, cfg0.idle w (grid0.coords t) = false := by decide +kernel
theorem idleAt0_10 : ∀ t : Fin cfg0.N, ¬cond0_4 (grid0.coords t) → cfg0.idle 10 (grid0.coords t) = true := by decide +kernel
theorem liveAt0_10 : ∀ t : Fin cfg0.N, cond0_4 (grid0.coords t) → cfg0.idle 10 (grid0.coords t) = false := by decide +kernel
theorem noFlush0_10 : ∀ t : Fin cfg0.N, ¬cond0_4 (grid0.coords t) → (cfg0.win 10).flush t = false := by decide +kernel
theorem idleAt0_11 : ∀ t : Fin cfg0.N, ¬cond0_7 (grid0.coords t) → cfg0.idle 11 (grid0.coords t) = true := by decide +kernel
theorem liveAt0_11 : ∀ t : Fin cfg0.N, cond0_7 (grid0.coords t) → cfg0.idle 11 (grid0.coords t) = false := by decide +kernel
theorem noFlush0_11 : ∀ t : Fin cfg0.N, ¬cond0_7 (grid0.coords t) → (cfg0.win 11).flush t = false := by decide +kernel

theorem PhiA0_eq (c : Dev nD) :
    (Pipeline.ΦA spec0 c : sProp 𝕄)
      = iprop(((∃ d, owns (c : Thread nD τ) scM14 fullShare d) ∗ (∃ d, owns (c : Thread nD τ) scM15 fullShare d)
          ∗ (∃ d, owns (c : Thread nD τ) scM16 fullShare d) ∗ others0 c) ∗ ∃ r, prngReg c r) := by
  unfold Pipeline.ΦA; rw [scopedRest0_eq]; simp only [scM14, scM15, scM16, owns_whole, others0]; try rfl

def blkWritten (k : ℕ) (blk : Vec F S400x256 .bf16) (f f' : Vec F S10000x256 .bf16) : Prop :=
  (∀ y : S10000x256.Idx, ∀ (hlo : 400 * k ≤ (y 0).val) (hhi : (y 0).val < 400 * k + 400),
      f' y = blk (ValueIdx.ix2 (⟨(y 0).val - 400 * k, by omega⟩ : Fin 400) (⟨(y 1).val, (y 1).isLt⟩ : Fin 256)))
    ∧ (∀ y : S10000x256.Idx, ¬(400 * k ≤ (y 0).val ∧ (y 0).val < 400 * k + 400) → f' y = f y)

structure Stage where
  a2 : Memref sig .tc .vmem S400x10000 .f32
  a3 : Memref sig .tc .vmem S10000x256 .f32
  (a4 a5 : Memref sig .tc .vmem S256x256 .f32)
  (a6 a7 a8 a9 a10 a11 : Memref sig .tc .vmem S1x256 .f32)
  a12 : Memref sig .tc .vmem S400x256 .bf16
  a13 : Memref sig .tc .vmem S2x256 .f32
  h2 : a2.IsWhole
  h3 : a3.IsWhole
  h4 : a4.IsWhole
  h5 : a5.IsWhole
  h6 : a6.IsWhole
  h7 : a7.IsWhole
  h8 : a8.IsWhole
  h9 : a9.IsWhole
  h10 : a10.IsWhole
  h11 : a11.IsWhole
  h12 : a12.IsWhole
  h13 : a13.IsWhole

abbrev stage0 (t : Fin cfg0.N) : Stage :=
  ⟨win0_0.stage (cfg0.slots t 0), win0_1.stage (cfg0.slots t 1), win0_2.stage (cfg0.slots t 2), win0_3.stage (cfg0.slots t 3),
    win0_4.stage (cfg0.slots t 4), win0_5.stage (cfg0.slots t 5), win0_6.stage (cfg0.slots t 6), win0_7.stage (cfg0.slots t 7),
    win0_8.stage (cfg0.slots t 8), win0_9.stage (cfg0.slots t 9), win0_10.stage (cfg0.slots t 10), win0_11.stage (cfg0.slots t 11),
    hstage0_0 ((cfg0.slots t 0).cast nbuf0_0), hstage0_1 ((cfg0.slots t 1).cast nbuf0_1), hstage0_2 ((cfg0.slots t 2).cast nbuf0_2),
    hstage0_3 ((cfg0.slots t 3).cast nbuf0_3), hstage0_4 ((cfg0.slots t 4).cast nbuf0_4), hstage0_5 ((cfg0.slots t 5).cast nbuf0_5),
    hstage0_6 ((cfg0.slots t 6).cast nbuf0_6), hstage0_7 ((cfg0.slots t 7).cast nbuf0_7), hstage0_8 ((cfg0.slots t 8).cast nbuf0_8),
    hstage0_9 ((cfg0.slots t 9).cast nbuf0_9), hstage0_10 ((cfg0.slots t 10).cast nbuf0_10), hstage0_11 ((cfg0.slots t 11).cast nbuf0_11)⟩

def body0 (i : grid0.Coords) (s : Stage) :=
  cc0__gcn_kern (F := F) i s.a2 s.h2 s.a3 s.h3 s.a4 s.h4 s.a5 s.h5 s.a6 s.h6 s.a7 s.h7 s.a8 s.h8 s.a9 s.h9 s.a10 s.h10 s.a11 s.h11 s.a12 s.h12
    s.a13 s.h13 scM14 (Memref.isWhole_whole _) scM15 (Memref.isWhole_whole _) scM16 (Memref.isWhole_whole _)

section Foot

variable (c : Dev nD) (s : Stage) (x0 : Vec F S400x10000 .f32) (x1 : Vec F S10000x256 .f32) (x2 x3 : Vec F S256x256 .f32)
  (x4 x5 x6 x7 x8 x9 : Vec F S1x256 .f32)

/-- The ten read-only inputs, each held at its block. -/
def ins : sProp 𝕄 :=
  iprop(owns (c : Thread nD τ) s.a2 fullShare x0 ∗ owns (c : Thread nD τ) s.a3 fullShare x1 ∗ owns (c : Thread nD τ) s.a4 fullShare x2
    ∗ owns (c : Thread nD τ) s.a5 fullShare x3 ∗ owns (c : Thread nD τ) s.a6 fullShare x4 ∗ owns (c : Thread nD τ) s.a7 fullShare x5
    ∗ owns (c : Thread nD τ) s.a8 fullShare x6 ∗ owns (c : Thread nD τ) s.a9 fullShare x7 ∗ owns (c : Thread nD τ) s.a10 fullShare x8
    ∗ owns (c : Thread nD τ) s.a11 fullShare x9)

/-- Everything the body touches, at given contents: the ten inputs, the two output blocks, the three scratch buffers. -/
def foot (o12 : Vec F S400x256 .bf16) (o13 : Vec F S2x256 .f32) (s14 f15 : Vec F S10000x256 .bf16) (st : Vec F S2x256 .f32) : sProp 𝕄 :=
  iprop(ins c s x0 x1 x2 x3 x4 x5 x6 x7 x8 x9 ∗ owns (c : Thread nD τ) s.a12 fullShare o12 ∗ owns (c : Thread nD τ) s.a13 fullShare o13
    ∗ owns (c : Thread nD τ) scM14 fullShare s14 ∗ owns (c : Thread nD τ) scM15 fullShare f15 ∗ owns (c : Thread nD τ) scM16 fullShare st)

end Foot

theorem owns_of (c : Dev nD) {sp : Space} {sh : Shape} {e : EltTy} (a : Memref sig .tc sp sh e) (f : a.view.ty.Contents (Elt F))
    (x : sh.Idx → Elt F e) (h : a.view.read (Elt F) f = x) :
    (a.view.loc (c : Thread nD τ) ↦[a.view.set]{fullShare} f : sProp 𝕄)
      ⊢ iprop(∃ f, ⌜a.view.read (Elt F) f = x⌝ ∗ (a.view.loc (c : Thread nD τ) ↦[a.view.set]{fullShare} f)) := by
  iintro H; iexists f; isplitr; · ipureintro; exact h
  iexact H

/-- Contents that read the blocks give the ten inputs back as they were found. -/
theorem ins_back (c : Dev nD) (s : Stage) {x0 : Vec F S400x10000 .f32} {x1 : Vec F S10000x256 .f32} {x2 x3 : Vec F S256x256 .f32}
    {x4 x5 x6 x7 x8 x9 : Vec F S1x256 .f32} {f2 f3 f4 f5 f6 f7 f8 f9 f10 f11}
    (h2 : s.a2.view.read (Elt F) f2 = x0) (h3 : s.a3.view.read (Elt F) f3 = x1) (h4 : s.a4.view.read (Elt F) f4 = x2)
    (h5 : s.a5.view.read (Elt F) f5 = x3) (h6 : s.a6.view.read (Elt F) f6 = x4) (h7 : s.a7.view.read (Elt F) f7 = x5)
    (h8 : s.a8.view.read (Elt F) f8 = x6) (h9 : s.a9.view.read (Elt F) f9 = x7) (h10 : s.a10.view.read (Elt F) f10 = x8)
    (h11 : s.a11.view.read (Elt F) f11 = x9) :
    (iprop((s.a2.view.loc (c : Thread nD τ) ↦[s.a2.view.set]{fullShare} f2)
      ∗ (s.a3.view.loc (c : Thread nD τ) ↦[s.a3.view.set]{fullShare} f3)
      ∗ (s.a4.view.loc (c : Thread nD τ) ↦[s.a4.view.set]{fullShare} f4)
      ∗ (s.a5.view.loc (c : Thread nD τ) ↦[s.a5.view.set]{fullShare} f5)
      ∗ (s.a6.view.loc (c : Thread nD τ) ↦[s.a6.view.set]{fullShare} f6)
      ∗ (s.a7.view.loc (c : Thread nD τ) ↦[s.a7.view.set]{fullShare} f7)
      ∗ (s.a8.view.loc (c : Thread nD τ) ↦[s.a8.view.set]{fullShare} f8)
      ∗ (s.a9.view.loc (c : Thread nD τ) ↦[s.a9.view.set]{fullShare} f9)
      ∗ (s.a10.view.loc (c : Thread nD τ) ↦[s.a10.view.set]{fullShare} f10)
      ∗ (s.a11.view.loc (c : Thread nD τ) ↦[s.a11.view.set]{fullShare} f11)) : sProp 𝕄)
      ⊢ ins c s x0 x1 x2 x3 x4 x5 x6 x7 x8 x9 := by
  unfold ins owns
  iintro ⟨H2, H3, H4, H5, H6, H7, H8, H9, H10, H11⟩
  ihave H2 := owns_of c s.a2 f2 x0 h2 $$ H2
  ihave H3 := owns_of c s.a3 f3 x1 h3 $$ H3
  ihave H4 := owns_of c s.a4 f4 x2 h4 $$ H4
  ihave H5 := owns_of c s.a5 f5 x3 h5 $$ H5
  ihave H6 := owns_of c s.a6 f6 x4 h6 $$ H6
  ihave H7 := owns_of c s.a7 f7 x5 h7 $$ H7
  ihave H8 := owns_of c s.a8 f8 x6 h8 $$ H8
  ihave H9 := owns_of c s.a9 f9 x7 h9 $$ H9
  ihave H10 := owns_of c s.a10 f10 x8 h10 $$ H10
  ihave H11 := owns_of c s.a11 f11 x9 h11 $$ H11
  iframe H2 H3 H4 H5 H6 H7 H8 H9 H10
  iexact H11

theorem zeroOff : (![0, 0] : Fin 2 → Nat) = fun _ => 0 := funext fun a => by
  match a with
  | ⟨0, _⟩ => rfl
  | ⟨1, _⟩ => rfl

theorem cover_slabs (p4 p3 p2 p1 p0 : Vec F S2000x256 .bf16) (y : S10000x256.Idx) :
    ∃ pc ∈ ([⟨rc4, p4⟩, ⟨rc3, p3⟩, ⟨rc2, p2⟩, ⟨rc1, p1⟩, ⟨rc0, p0⟩] : List (View.Piece (Elt F) S10000x256 .bf16)), y ∈ pc.1.set :=
  View.cover_of_tiled [⟨rc4, p4⟩, ⟨rc3, p3⟩, ⟨rc2, p2⟩, ⟨rc1, p1⟩, ⟨rc0, p0⟩] S2000x256.size (by rfl) y

theorem cover_rows (p1 p0 : Vec F S1x256 .f32) (y : S2x256.Idx) :
    ∃ pc ∈ ([⟨rs1, p1⟩, ⟨rs0, p0⟩] : List (View.Piece (Elt F) S2x256 .f32)), y ∈ pc.1.set :=
  View.cover_of_tiled [⟨rs1, p1⟩, ⟨rs0, p0⟩] S1x256.size (by rfl) y

theorem cover_blk (p : Vec F S400x256 .bf16) (y : S400x256.Idx) :
    ∃ pc ∈ ([⟨Rect.unit (s := S400x256) ![0, 0] S400x256.size inb_S400x256_S400x256_0_0, p⟩] : List (View.Piece (Elt F) S400x256 .bf16)),
      y ∈ pc.1.set :=
  View.cover_of_tiled _ S400x256.size (by rfl) y

/-- One 400-row block stored at rows 400·i and on: those rows read the block, every other row what was there. -/
theorem blkWritten_store {κ : Kind} {sp : Space} (i : grid0.Coords) (h3 : k0_cond3 i = 1#1) (v : View sig κ sp S10000x256 .bf16)
    (g : v.ty.Contents (Elt F)) (f15 : Vec F S10000x256 .bf16) (hg : v.read (Elt F) g = f15) (blk : Vec F S400x256 .bf16) :
    blkWritten (i 1).val blk f15
      (v.read (Elt F) (v.writes (Elt F) g [⟨Rect.unit (s := S10000x256) (k0_off1 i) S400x256.size (k0_off1_inb i h3), blk⟩])) := by
  constructor
  · intro y hlo hhi
    exact View.read_writes_cons_rows_of_mem (d := ![10000, 256]) v g (k0_off1_inb i h3) blk [] y
      (ValueIdx.ix2 (⟨(y 0).val - 400 * (i 1).val, by omega⟩ : Fin 400) (⟨(y 1).val, (y 1).isLt⟩ : Fin 256)) (k0_off1_eq i)
      (by show (y 0).val = 400 * (i 1).val + ((y 0).val - 400 * (i 1).val); omega) rfl
  · intro y hy
    rw [View.read_writes_cons_rows_of_not_mem (d := ![10000, 256]) v g (k0_off1_inb i h3) blk [] y (k0_off1_eq i)
      (show S400x256.size 0 = 400 from rfl) (by omega), View.writes_nil, hg]

end Cert.Kernel.Hand

end
-- ==== Proof.BRun0A.lean ====
import proofs.«112434_g77017353552286_cont_9to1c4b_820_16_alg».proof.Proof.BRuns0
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Point (0, 0): the prologue fills the support with X·W₁, the block goes to h₁, the statistics rows restart. -/
theorem run0_A (c : Dev nD) (E : Set ℕ) (i : grid0.Coords) (h1 : cond0_1 i) (h2 : ¬cond0_2 i) (h3 : cond0_3 i) (h4 : ¬cond0_4 i) (h5 : cond0_5 i) (h6 : ¬cond0_6 i) (h7 : ¬cond0_7 i)
    (s : Stage) (x0 : Vec F S400x10000 .f32) (x1 : Vec F S10000x256 .f32) (x2 x3 : Vec F S256x256 .f32) (x4 x5 x6 x7 x8 x9 : Vec F S1x256 .f32)
    (o12 : Vec F S400x256 .bf16) (o13 : Vec F S2x256 .f32) (s14 f15 : Vec F S10000x256 .bf16) (st : Vec F S2x256 .f32) (K : PUnit → sProp 𝕄) :
    iprop(foot c s x0 x1 x2 x3 x4 x5 x6 x7 x8 x9 o12 o13 s14 f15 st
        ∗ ((∃ f', ⌜blkWritten (i 1).val (k0_pay24 x0 (supp1 x1 x2)) f15 f'⌝ ∗ foot c s x0 x1 x2 x3 x4 x5 x6 x7 x8 x9 o12 o13 (supp1 x1 x2) f' (stReset x0 (supp1 x1 x2))) -∗ K ⟨⟩))
      ⊢ wp frame (wpE (defs₀ (F := F)) Variants.none c none) E (body0 i s) K := by
  unfold body0
  simp only [cc0__gcn_kern_eq_skeleton]; unfold cc0__gcn_kern_skel
  conv => arg 1; arg 1; unfold foot ins owns
  iintro ⟨⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%f12, %hf12, H12⟩, ⟨%f13, %hf13, H13⟩, ⟨%f14, %hf14, H14⟩, ⟨%g15, %hf15, H15⟩, ⟨%f16, %hf16, H16⟩⟩, Hk⟩
  sl_exec (disch := first | exact h1 | exact h2 | exact h3 | exact h4 | exact h5 | exact h6 | exact h7)
  sl_step
  iapply Hk
  unfold foot owns
  iexists _; isplitr
  swap
  · isplitl [H2 H3 H4 H5 H6 H7 H8 H9 H10 H11]
    · iapply ins_back c s hf2 hf3 hf4 hf5 hf6 hf7 hf8 hf9 hf10 hf11
      iframe H2 H3 H4 H5 H6 H7 H8 H9 H10
      iexact H11
    isplitl [H12]; · iapply owns_of c s.a12 f12 o12 hf12; iexact H12
    isplitl [H13]; · iapply owns_of c s.a13 f13 o13 hf13; iexact H13
    isplitl [H14]
    · iexists _; isplitr
      swap; · iexact H14
      ipureintro
      sl_unfold_run_names
      rw [View.read_writes_eq_canon _ _ _ (cover_slabs _ _ _ _ _)]
      unfold supp1
      simp only [View.readAt_eq_ld, hf2, hf3, hf4, View.ld_unit_zero (S := S256x256) zeroOff, View.ld_unit_zero (S := S400x10000) zeroOff, View.ld_unit_zero (S := S10000x256) zeroOff]
    isplitl [H15]
    · iexists _; isplitr
      swap; · iexact H15
      ipureintro; rfl
    iexists _; isplitr
    swap; · iexact H16
    ipureintro
    sl_unfold_run_names
    rw [View.read_writes_eq_canon _ _ _ (cover_rows _ _), View.readCov_eq_canon_ld _ _ _ (cover_slabs _ _ _ _ _)]
    unfold stReset supp1
    simp only [View.readAt_eq_ld, hf2, hf3, hf4, View.ld_unit_zero (S := S256x256) zeroOff, View.ld_unit_zero (S := S400x10000) zeroOff, View.ld_unit_zero (S := S10000x256) zeroOff]
  ipureintro
  sl_unfold_run_names
  rw [View.readCov_eq_canon_ld _ _ _ (cover_slabs _ _ _ _ _)]
  unfold supp1
  simp only [View.readAt_eq_ld, hf2, hf3, hf4, View.ld_unit_zero (S := S256x256) zeroOff, View.ld_unit_zero (S := S400x10000) zeroOff, View.ld_unit_zero (S := S10000x256) zeroOff]
  exact blkWritten_store i h3 scM15.view g15 f15 hf15 _

end Cert.Kernel.Hand

end
-- ==== Proof.BRun0B.lean ====
import proofs.«112434_g77017353552286_cont_9to1c4b_820_16_alg».proof.Proof.BRuns0
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Points (0, i), i > 0: the block goes to h₁ and its column sums are added to the statistics rows. -/
theorem run0_B (c : Dev nD) (E : Set ℕ) (i : grid0.Coords) (h1 : ¬cond0_1 i) (h2 : ¬cond0_2 i) (h3 : cond0_3 i) (h4 : ¬cond0_4 i) (h5 : ¬cond0_5 i) (h6 : cond0_6 i) (h7 : ¬cond0_7 i)
    (s : Stage) (x0 : Vec F S400x10000 .f32) (x1 : Vec F S10000x256 .f32) (x2 x3 : Vec F S256x256 .f32) (x4 x5 x6 x7 x8 x9 : Vec F S1x256 .f32)
    (o12 : Vec F S400x256 .bf16) (o13 : Vec F S2x256 .f32) (s14 f15 : Vec F S10000x256 .bf16) (st : Vec F S2x256 .f32) (K : PUnit → sProp 𝕄) :
    iprop(foot c s x0 x1 x2 x3 x4 x5 x6 x7 x8 x9 o12 o13 s14 f15 st
        ∗ ((∃ f', ⌜blkWritten (i 1).val (k0_pay24 x0 s14) f15 f'⌝ ∗ foot c s x0 x1 x2 x3 x4 x5 x6 x7 x8 x9 o12 o13 s14 f' (stAcc x0 s14 st)) -∗ K ⟨⟩))
      ⊢ wp frame (wpE (defs₀ (F := F)) Variants.none c none) E (body0 i s) K := by
  unfold body0
  simp only [cc0__gcn_kern_eq_skeleton]; unfold cc0__gcn_kern_skel
  conv => arg 1; arg 1; unfold foot ins owns
  iintro ⟨⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%f12, %hf12, H12⟩, ⟨%f13, %hf13, H13⟩, ⟨%f14, %hf14, H14⟩, ⟨%g15, %hf15, H15⟩, ⟨%f16, %hf16, H16⟩⟩, Hk⟩
  sl_exec (disch := first | exact h1 | exact h2 | exact h3 | exact h4 | exact h5 | exact h6 | exact h7)
  sl_step
  iapply Hk
  unfold foot owns
  iexists _; isplitr
  swap
  · isplitl [H2 H3 H4 H5 H6 H7 H8 H9 H10 H11]
    · iapply ins_back c s hf2 hf3 hf4 hf5 hf6 hf7 hf8 hf9 hf10 hf11
      iframe H2 H3 H4 H5 H6 H7 H8 H9 H10
      iexact H11
    isplitl [H12]; · iapply owns_of c s.a12 f12 o12 hf12; iexact H12
    isplitl [H13]; · iapply owns_of c s.a13 f13 o13 hf13; iexact H13
    isplitl [H14]; · iapply owns_of c scM14 f14 s14 hf14; iexact H14
    isplitl [H15]
    · iexists _; isplitr
      swap; · iexact H15
      ipureintro; rfl
    iexists _; isplitr
    swap; · iexact H16
    ipureintro
    sl_unfold_run_names
    rw [View.read_writes_eq_canon _ _ _ (cover_rows _ _)]
    unfold stAcc
    simp only [View.readAt_eq_ld, hf2, hf14, hf16, View.ld_unit_zero (S := S400x10000) zeroOff, View.ld_unit_zero (S := S10000x256) zeroOff]
  ipureintro
  simp only [View.readAt_eq_ld, hf2, hf14, View.ld_unit_zero (S := S400x10000) zeroOff, View.ld_unit_zero (S := S10000x256) zeroOff]
  exact blkWritten_store i h3 scM15.view g15 f15 hf15 _

end Cert.Kernel.Hand

end
-- ==== Proof.BRun0C.lean ====
import proofs.«112434_g77017353552286_cont_9to1c4b_820_16_alg».proof.Proof.BRuns0
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Point (1, 0): the prologue refills the support from h₁ and the finished rows, the block goes out, the rows restart. -/
theorem run0_C (c : Dev nD) (E : Set ℕ) (i : grid0.Coords) (h1 : ¬cond0_1 i) (h2 : cond0_2 i) (h3 : ¬cond0_3 i) (h4 : cond0_4 i) (h5 : cond0_5 i) (h6 : ¬cond0_6 i) (h7 : ¬cond0_7 i)
    (s : Stage) (x0 : Vec F S400x10000 .f32) (x1 : Vec F S10000x256 .f32) (x2 x3 : Vec F S256x256 .f32) (x4 x5 x6 x7 x8 x9 : Vec F S1x256 .f32)
    (o12 : Vec F S400x256 .bf16) (o13 : Vec F S2x256 .f32) (s14 f15 : Vec F S10000x256 .bf16) (st : Vec F S2x256 .f32) (K : PUnit → sProp 𝕄) :
    iprop(foot c s x0 x1 x2 x3 x4 x5 x6 x7 x8 x9 o12 o13 s14 f15 st
        ∗ (foot c s x0 x1 x2 x3 x4 x5 x6 x7 x8 x9 (k0_pay25 x0 (supp2 x4 x6 x8 st f15 x3)) o13 (supp2 x4 x6 x8 st f15 x3) f15 (stReset x0 (supp2 x4 x6 x8 st f15 x3)) -∗ K ⟨⟩))
      ⊢ wp frame (wpE (defs₀ (F := F)) Variants.none c none) E (body0 i s) K := by
  unfold body0
  simp only [cc0__gcn_kern_eq_skeleton]; unfold cc0__gcn_kern_skel
  conv => arg 1; arg 1; unfold foot ins owns
  iintro ⟨⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%f12, %hf12, H12⟩, ⟨%f13, %hf13, H13⟩, ⟨%f14, %hf14, H14⟩, ⟨%g15, %hf15, H15⟩, ⟨%f16, %hf16, H16⟩⟩, Hk⟩
  sl_exec (disch := first | exact h1 | exact h2 | exact h3 | exact h4 | exact h5 | exact h6 | exact h7)
  sl_step
  iapply Hk
  unfold foot owns
  isplitl [H2 H3 H4 H5 H6 H7 H8 H9 H10 H11]
  · iapply ins_back c s hf2 hf3 hf4 hf5 hf6 hf7 hf8 hf9 hf10 hf11
    iframe H2 H3 H4 H5 H6 H7 H8 H9 H10
    iexact H11
  isplitl [H12]
  · iexists _; isplitr
    swap; · iexact H12
    ipureintro
    sl_unfold_run_names
    rw [View.read_writes_eq_canon _ _ _ (cover_blk _), View.canon_unit_zero zeroOff,
      View.readCov_eq_canon_ld _ _ _ (cover_slabs _ _ _ _ _)]
    unfold supp2 sc1 sh1
    simp only [View.readAt_eq_ld, hf2, hf5, hf6, hf8, hf10, hf15, hf16, View.ld_unit_zero (S := S1x256) zeroOff, View.ld_unit_zero (S := S256x256) zeroOff, View.ld_unit_zero (S := S400x10000) zeroOff, View.ld_unit_zero (S := S10000x256) zeroOff]
  isplitl [H13]; · iapply owns_of c s.a13 f13 o13 hf13; iexact H13
  isplitl [H14]
  · iexists _; isplitr
    swap; · iexact H14
    ipureintro
    sl_unfold_run_names
    rw [View.read_writes_eq_canon _ _ _ (cover_slabs _ _ _ _ _)]
    unfold supp2 sc1 sh1
    simp only [View.readAt_eq_ld, hf2, hf5, hf6, hf8, hf10, hf15, hf16, View.ld_unit_zero (S := S1x256) zeroOff, View.ld_unit_zero (S := S256x256) zeroOff, View.ld_unit_zero (S := S400x10000) zeroOff, View.ld_unit_zero (S := S10000x256) zeroOff]
  isplitl [H15]; · iapply owns_of c scM15 g15 f15 hf15; iexact H15
  iexists _; isplitr
  swap; · iexact H16
  ipureintro
  sl_unfold_run_names
  rw [View.read_writes_eq_canon _ _ _ (cover_rows _ _), View.readCov_eq_canon_ld _ _ _ (cover_slabs _ _ _ _ _)]
  unfold stReset supp2 sc1 sh1
  simp only [View.readAt_eq_ld, hf2, hf5, hf6, hf8, hf10, hf15, hf16, View.ld_unit_zero (S := S1x256) zeroOff, View.ld_unit_zero (S := S256x256) zeroOff, View.ld_unit_zero (S := S400x10000) zeroOff, View.ld_unit_zero (S := S10000x256) zeroOff]

end Cert.Kernel.Hand

end
-- ==== Proof.BRun0D.lean ====
import proofs.«112434_g77017353552286_cont_9to1c4b_820_16_alg».proof.Proof.BRuns0
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Points (1, i), 0 < i < 24: the block goes out and its column sums are added to the statistics rows. -/
theorem run0_D (c : Dev nD) (E : Set ℕ) (i : grid0.Coords) (h1 : ¬cond0_1 i) (h2 : ¬cond0_2 i) (h3 : ¬cond0_3 i) (h4 : cond0_4 i) (h5 : ¬cond0_5 i) (h6 : cond0_6 i) (h7 : ¬cond0_7 i)
    (s : Stage) (x0 : Vec F S400x10000 .f32) (x1 : Vec F S10000x256 .f32) (x2 x3 : Vec F S256x256 .f32) (x4 x5 x6 x7 x8 x9 : Vec F S1x256 .f32)
    (o12 : Vec F S400x256 .bf16) (o13 : Vec F S2x256 .f32) (s14 f15 : Vec F S10000x256 .bf16) (st : Vec F S2x256 .f32) (K : PUnit → sProp 𝕄) :
    iprop(foot c s x0 x1 x2 x3 x4 x5 x6 x7 x8 x9 o12 o13 s14 f15 st
        ∗ (foot c s x0 x1 x2 x3 x4 x5 x6 x7 x8 x9 (k0_pay25 x0 s14) o13 s14 f15 (stAcc x0 s14 st) -∗ K ⟨⟩))
      ⊢ wp frame (wpE (defs₀ (F := F)) Variants.none c none) E (body0 i s) K := by
  unfold body0
  simp only [cc0__gcn_kern_eq_skeleton]; unfold cc0__gcn_kern_skel
  conv => arg 1; arg 1; unfold foot ins owns
  iintro ⟨⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%f12, %hf12, H12⟩, ⟨%f13, %hf13, H13⟩, ⟨%f14, %hf14, H14⟩, ⟨%g15, %hf15, H15⟩, ⟨%f16, %hf16, H16⟩⟩, Hk⟩
  sl_exec (disch := first | exact h1 | exact h2 | exact h3 | exact h4 | exact h5 | exact h6 | exact h7)
  sl_step
  iapply Hk
  unfold foot owns
  isplitl [H2 H3 H4 H5 H6 H7 H8 H9 H10 H11]
  · iapply ins_back c s hf2 hf3 hf4 hf5 hf6 hf7 hf8 hf9 hf10 hf11
    iframe H2 H3 H4 H5 H6 H7 H8 H9 H10
    iexact H11
  isplitl [H12]
  · iexists _; isplitr
    swap; · iexact H12
    ipureintro
    sl_unfold_run_names
    rw [View.read_writes_eq_canon _ _ _ (cover_blk _), View.canon_unit_zero zeroOff]
    simp only [View.readAt_eq_ld, hf2, hf14, View.ld_unit_zero (S := S400x10000) zeroOff, View.ld_unit_zero (S := S10000x256) zeroOff]
  isplitl [H13]; · iapply owns_of c s.a13 f13 o13 hf13; iexact H13
  isplitl [H14]; · iapply owns_of c scM14 f14 s14 hf14; iexact H14
  isplitl [H15]; · iapply owns_of c scM15 g15 f15 hf15; iexact H15
  iexists _; isplitr
  swap; · iexact H16
  ipureintro
  sl_unfold_run_names
  rw [View.read_writes_eq_canon _ _ _ (cover_rows _ _)]
  unfold stAcc
  simp only [View.readAt_eq_ld, hf2, hf14, hf16, View.ld_unit_zero (S := S400x10000) zeroOff, View.ld_unit_zero (S := S10000x256) zeroOff]

end Cert.Kernel.Hand

end
-- ==== Proof.BRun0E.lean ====
import proofs.«112434_g77017353552286_cont_9to1c4b_820_16_alg».proof.Proof.BRuns0
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Point (1, 24): as the points before it, and the slope and intercept rows are computed from the finished rows. -/
theorem run0_E (c : Dev nD) (E : Set ℕ) (i : grid0.Coords) (h1 : ¬cond0_1 i) (h2 : ¬cond0_2 i) (h3 : ¬cond0_3 i) (h4 : cond0_4 i) (h5 : ¬cond0_5 i) (h6 : cond0_6 i) (h7 : cond0_7 i)
    (s : Stage) (x0 : Vec F S400x10000 .f32) (x1 : Vec F S10000x256 .f32) (x2 x3 : Vec F S256x256 .f32) (x4 x5 x6 x7 x8 x9 : Vec F S1x256 .f32)
    (o12 : Vec F S400x256 .bf16) (o13 : Vec F S2x256 .f32) (s14 f15 : Vec F S10000x256 .bf16) (st : Vec F S2x256 .f32) (K : PUnit → sProp 𝕄) :
    iprop(foot c s x0 x1 x2 x3 x4 x5 x6 x7 x8 x9 o12 o13 s14 f15 st
        ∗ (foot c s x0 x1 x2 x3 x4 x5 x6 x7 x8 x9 (k0_pay25 x0 s14) (coefOf x5 x7 x9 (stAcc x0 s14 st)) s14 f15 (stAcc x0 s14 st) -∗ K ⟨⟩))
      ⊢ wp frame (wpE (defs₀ (F := F)) Variants.none c none) E (body0 i s) K := by
  unfold body0
  simp only [cc0__gcn_kern_eq_skeleton]; unfold cc0__gcn_kern_skel
  conv => arg 1; arg 1; unfold foot ins owns
  iintro ⟨⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%f12, %hf12, H12⟩, ⟨%f13, %hf13, H13⟩, ⟨%f14, %hf14, H14⟩, ⟨%g15, %hf15, H15⟩, ⟨%f16, %hf16, H16⟩⟩, Hk⟩
  sl_exec (disch := first | exact h1 | exact h2 | exact h3 | exact h4 | exact h5 | exact h6 | exact h7)
  sl_step
  iapply Hk
  unfold foot owns
  isplitl [H2 H3 H4 H5 H6 H7 H8 H9 H10 H11]
  · iapply ins_back c s hf2 hf3 hf4 hf5 hf6 hf7 hf8 hf9 hf10 hf11
    iframe H2 H3 H4 H5 H6 H7 H8 H9 H10
    iexact H11
  isplitl [H12]
  · iexists _; isplitr
    swap; · iexact H12
    ipureintro
    sl_unfold_run_names
    rw [View.read_writes_eq_canon _ _ _ (cover_blk _), View.canon_unit_zero zeroOff]
    simp only [View.readAt_eq_ld, hf2, hf7, hf9, hf11, hf14, hf16, View.ld_unit_zero (S := S1x256) zeroOff, View.ld_unit_zero (S := S400x10000) zeroOff, View.ld_unit_zero (S := S10000x256) zeroOff]
  isplitl [H13]
  · iexists _; isplitr
    swap; · iexact H13
    ipureintro
    sl_unfold_run_names
    rw [View.read_writes_eq_canon _ _ _ (cover_rows _ _), View.readCov_eq_canon_ld _ _ _ (cover_rows _ _),
      View.readCov_eq_canon_ld _ _ _ (cover_rows _ _)]
    unfold coefOf stAcc
    simp only [View.readAt_eq_ld, hf2, hf7, hf9, hf11, hf14, hf16, View.ld_unit_zero (S := S1x256) zeroOff, View.ld_unit_zero (S := S400x10000) zeroOff, View.ld_unit_zero (S := S10000x256) zeroOff]
  isplitl [H14]; · iapply owns_of c scM14 f14 s14 hf14; iexact H14
  isplitl [H15]; · iapply owns_of c scM15 g15 f15 hf15; iexact H15
  iexists _; isplitr
  swap; · iexact H16
  ipureintro
  sl_unfold_run_names
  rw [View.read_writes_eq_canon _ _ _ (cover_rows _ _)]
  unfold stAcc
  simp only [View.readAt_eq_ld, hf2, hf7, hf9, hf11, hf14, hf16, View.ld_unit_zero (S := S1x256) zeroOff, View.ld_unit_zero (S := S400x10000) zeroOff, View.ld_unit_zero (S := S10000x256) zeroOff]

end Cert.Kernel.Hand

end
-- ==== Proof.BFrame0.lean ====
import proofs.«112434_g77017353552286_cont_9to1c4b_820_16_alg».proof.Proof.BRuns0
import proofs.«112434_g77017353552286_cont_9to1c4b_820_16_alg».proof.Proof.BRun0A
import proofs.«112434_g77017353552286_cont_9to1c4b_820_16_alg».proof.Proof.BRun0B
import proofs.«112434_g77017353552286_cont_9to1c4b_820_16_alg».proof.Proof.BRun0C
import proofs.«112434_g77017353552286_cont_9to1c4b_820_16_alg».proof.Proof.BRun0D
import proofs.«112434_g77017353552286_cont_9to1c4b_820_16_alg».proof.Proof.BRun0E
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem val_lt50 (t : Fin cfg0.N) : t.val < 50 := lt_of_lt_of_eq t.isLt (show cfg0.N = 50 from N_0)

theorem pt_val (t : Fin cfg0.N) : pt t.val = t := Fin.ext (Nat.mod_eq_of_lt (val_lt50 t))
theorem pt_of_val (t : Fin cfg0.N) (n : ℕ) (h : t.val = n) : pt n = t := h ▸ pt_val t

section Contents

variable (c : Dev nD)

theorem suppAt_lt (n : ℕ) (h : n < 25) : suppAt V c n = suppA V c := by unfold suppAt; exact if_pos h
theorem suppAt_ge (n : ℕ) (h : 25 ≤ n) : suppAt V c n = suppB V c := by unfold suppAt; exact if_neg (by omega)
theorem stAt_lt (n : ℕ) (h : n < 25) : stAt V c n = stA V c n := by unfold stAt; exact if_pos h
theorem stAt_ge (n : ℕ) (h : 25 ≤ n) : stAt V c n = stB V c (n - 25) := by unfold stAt; exact if_neg (by omega)
theorem stA_zero : stA V c 0 = stReset (aAt V c 0) (suppA V c) := by unfold stA suppA; rw [stA_]
theorem stA_succ (n : ℕ) : stA V c (n + 1) = stAcc (aAt V c (n + 1)) (suppA V c) (stA V c n) := by unfold stA suppA; rw [stA_]
theorem stB_zero : stB V c 0 = stReset (aAt V c 25) (suppB V c) := by unfold stB suppB; rw [stB_]
theorem stB_succ (n : ℕ) : stB V c (n + 1) = stAcc (aAt V c (25 + (n + 1))) (suppB V c) (stB V c n) := by unfold stB suppB; rw [stB_]

end Contents

section Cases

variable (c : Dev nD) (t : Fin cfg0.N)

theorem suppAt_A (ht : t.val = 0) : suppAt V c t.val = supp1 (xB V c t) (w1B V c t) := by
  rw [suppAt_lt V c _ (by omega)]; unfold suppA; rw [pt_of_val t 0 ht]
theorem stAt_A (ht : t.val = 0) : stAt V c t.val = stReset (adjB V c t) (supp1 (xB V c t) (w1B V c t)) := by
  rw [ht, stAt_lt V c 0 (by omega), stA_zero]; unfold suppA aAt; rw [pt_of_val t 0 ht]

theorem suppAt_keep (h0 : t.val % 25 ≠ 0) : suppAt V c t.val = suppAt V c (t.val - 1) := by
  by_cases h : t.val < 25
  · rw [suppAt_lt V c _ h, suppAt_lt V c _ (by omega)]
  · rw [suppAt_ge V c _ (by omega), suppAt_ge V c _ (by omega)]
theorem stAt_acc (h0 : t.val % 25 ≠ 0) :
    stAt V c t.val = stAcc (adjB V c t) (suppAt V c (t.val - 1)) (stAt V c (t.val - 1)) := by
  have hN := val_lt50 t
  by_cases h : t.val < 25
  · obtain ⟨n, hn⟩ : ∃ n, t.val = n + 1 := ⟨t.val - 1, by omega⟩
    rw [hn, Nat.add_sub_cancel, stAt_lt V c _ (by omega), stAt_lt V c _ (by omega), suppAt_lt V c _ (by omega), stA_succ]
    unfold aAt; rw [pt_of_val t (n + 1) hn]
  · obtain ⟨n, hn⟩ : ∃ n, t.val = 25 + (n + 1) := ⟨t.val - 26, by omega⟩
    rw [hn, stAt_ge V c _ (by omega), stAt_ge V c _ (by omega), suppAt_ge V c _ (by omega),
      show 25 + (n + 1) - 25 = n + 1 from by omega, show 25 + (n + 1) - 1 - 25 = n from by omega, stB_succ]
    unfold aAt; rw [pt_of_val t (25 + (n + 1)) hn]

end Cases

section Cases2

variable (c : Dev nD) (t : Fin cfg0.N)

theorem suppB_C (ht : t.val = 25) :
    suppB V c = supp2 (b1B V c t) (g1B V c t) (be1B V c t) (stAt V c (t.val - 1)) (h1A V c) (w2B V c t) := by
  rw [ht, show 25 - 1 = 24 from rfl, stAt_lt V c _ (by omega)]; unfold suppB suppB_ stA h1A; rw [pt_of_val t 25 ht]
theorem stAt_C (ht : t.val = 25) : stAt V c t.val = stReset (adjB V c t) (suppB V c) := by
  rw [ht, stAt_ge V c 25 (by omega), show 25 - 25 = 0 from rfl, stB_zero]; unfold aAt; rw [pt_of_val t 25 ht]

theorem coefB_E (ht : t.val = 49) : coefB V c = coefOf (b2B V c t) (g2B V c t) (be2B V c t) (stAt V c t.val) := by
  rw [ht, stAt_ge V c 49 (by omega), show 49 - 25 = 24 from rfl]; unfold coefB; rw [pt_of_val t 49 ht]

theorem H1Upto_all (n : ℕ) (hn : 24 ≤ n) (f : Vec F S10000x256 .bf16) (h : H1Upto V c n f) : f = h1A V c := by
  funext y
  have hy : (y 0).val < 10000 := (y 0).isLt
  exact h y (by rw [Nat.min_eq_right (by omega)]; omega)

theorem H1Upto_keep (n : ℕ) (hn : 25 ≤ n) (f : Vec F S10000x256 .bf16) (h : H1Upto V c (n - 1) f) : H1Upto V c n f := by
  intro y hy
  apply h y
  rw [Nat.min_eq_right (by omega)] at hy ⊢
  exact hy

theorem H1Upto_step (ht : t.val < 25) (f f' : Vec F S10000x256 .bf16)
    (hprev : t.val ≠ 0 → H1Upto V c (t.val - 1) f)
    (hw : blkWritten ((grid0.coords t) 1).val (k0_pay24 (adjB V c t) (suppA V c)) f f') : H1Upto V c t.val f' := by
  rw [coord1_eq t, Nat.mod_eq_of_lt ht] at hw
  intro y hy
  rw [Nat.min_eq_left (by omega)] at hy
  by_cases hlo : 400 * t.val ≤ (y 0).val
  · rw [hw.1 y hlo (by omega)]
    have hdiv : (y 0).val / 400 = t.val := by omega
    have hmod : (y 0).val % 400 = (y 0).val - 400 * t.val := by omega
    unfold h1A h1A_ aAt suppA
    rw [show pt ((y 0).val / 400) = t from pt_of_val t _ hdiv.symm]
    congr 2
    exact Fin.ext hmod.symm
  · rw [hw.2 y (by omega)]
    have h0 : t.val ≠ 0 := by omega
    exact hprev h0 y (by rw [Nat.min_eq_left (by omega)]; omega)

end Cases2

section Windows

variable (c : Dev nD) (t : Fin cfg0.N)

theorem after0_0 : (dat0 V c).after 0 t = iblk0 V c 0 t := by dsimp only [dat0]
theorem after0_1 : (dat0 V c).after 1 t = iblk0 V c 1 t := by dsimp only [dat0]
theorem after0_2 : (dat0 V c).after 2 t = iblk0 V c 2 t := by dsimp only [dat0]
theorem after0_3 : (dat0 V c).after 3 t = iblk0 V c 3 t := by dsimp only [dat0]
theorem after0_4 : (dat0 V c).after 4 t = iblk0 V c 4 t := by dsimp only [dat0]
theorem after0_5 : (dat0 V c).after 5 t = iblk0 V c 5 t := by dsimp only [dat0]
theorem after0_6 : (dat0 V c).after 6 t = iblk0 V c 6 t := by dsimp only [dat0]
theorem after0_7 : (dat0 V c).after 7 t = iblk0 V c 7 t := by dsimp only [dat0]
theorem after0_8 : (dat0 V c).after 8 t = iblk0 V c 8 t := by dsimp only [dat0]
theorem after0_9 : (dat0 V c).after 9 t = iblk0 V c 9 t := by dsimp only [dat0]

theorem before0_0 (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
theorem before0_8 (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)
theorem before0_9 (d) : (dat0 V c).before 9 t d = iblk0 V c 9 t :=
  ((dat0 V c).before_in_eq_fetched 9 rfl (fun _ => rfl) (fun _ _ _ => rfl) (fun t => by rw [after0_9]; unfold Dat.blockOf iblk0; rw [A_eq0]; try rfl) t d).trans
    (by unfold Dat.fetched Dat.blockOf iblk0; rw [A_eq0]; try rfl)

end Windows

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM14 fullShare (suppAt V c n)
      ∗ (∃ f, owns (c : Thread nD τ) scM15 fullShare f ∗ ⌜H1Upto V c n f⌝)
      ∗ owns (c : Thread nD τ) scM16 fullShare (stAt V c n)
      ∗ others0 c ∗ (∃ r, prngReg c r)) := rfl

theorem PhiS0_pos (c : Dev nD) (n : ℕ) (h : n ≤ cfg0.N) (hz : n ≠ 0) :
    PhiS0 V c n h = iprop(owns (c : Thread nD τ) scM14 fullShare (suppAt V c (n - 1))
      ∗ (∃ f, owns (c : Thread nD τ) scM15 fullShare f ∗ ⌜H1Upto V c (n - 1) f⌝)
      ∗ owns (c : Thread nD τ) scM16 fullShare (stAt V c (n - 1))
      ∗ others0 c ∗ (∃ r, prngReg c r)) := by
  cases n with
  | zero => exact absurd rfl hz
  | succ n => rfl

theorem Phi0_castSucc (c : Dev nD) (t : Fin cfg0.N) :
    (dat0 V c).Φ t.castSucc = PhiS0 V c t.val (Nat.le_of_lt t.isLt) := by
  dsimp only [dat0]; simp only [Fin.coe_castSucc]

def bodyPre0 (c : Dev nD) (t : Fin cfg0.N) : sProp 𝕄 :=
  iprop((dat0 V c).Φ t.castSucc ∗ (dat0 V c).owesAt () t.castSucc
    ∗ (∃ d, owns (c : Thread nD τ) (stage0 t).a2 fullShare ((dat0 V c).before 0 t d))
    ∗ (∃ d, owns (c : Thread nD τ) (stage0 t).a3 fullShare ((dat0 V c).before 1 t d))
    ∗ (∃ d, owns (c : Thread nD τ) (stage0 t).a4 fullShare ((dat0 V c).before 2 t d))
    ∗ (∃ d, owns (c : Thread nD τ) (stage0 t).a5 fullShare ((dat0 V c).before 3 t d))
    ∗ (∃ d, owns (c : Thread nD τ) (stage0 t).a6 fullShare ((dat0 V c).before 4 t d))
    ∗ (∃ d, owns (c : Thread nD τ) (stage0 t).a7 fullShare ((dat0 V c).before 5 t d))
    ∗ (∃ d, owns (c : Thread nD τ) (stage0 t).a8 fullShare ((dat0 V c).before 6 t d))
    ∗ (∃ d, owns (c : Thread nD τ) (stage0 t).a9 fullShare ((dat0 V c).before 7 t d))
    ∗ (∃ d, owns (c : Thread nD τ) (stage0 t).a10 fullShare ((dat0 V c).before 8 t d))
    ∗ (∃ d, owns (c : Thread nD τ) (stage0 t).a11 fullShare ((dat0 V c).before 9 t d))
    ∗ (∃ d, owns (c : Thread nD τ) (stage0 t).a12 fullShare ((dat0 V c).before 10 t d))
    ∗ (∃ d, owns (c : Thread nD τ) (stage0 t).a13 fullShare ((dat0 V c).before 11 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

theorem leaves0_0 (c : Dev nD) (t : Fin cfg0.N) :
    (dat0 V c).leavesExact 0 t = owns (c : Thread nD τ) (stage0 t).a2 fullShare (iblk0 V c 0 t) := by
  unfold Dat.leavesExact; rw [liveAt0 0 (by decide) t, after0_0]
theorem leaves0_1 (c : Dev nD) (t : Fin cfg0.N) :
    (dat0 V c).leavesExact 1 t = owns (c : Thread nD τ) (stage0 t).a3 fullShare (iblk0 V c 1 t) := by
  unfold Dat.leavesExact; rw [liveAt0 1 (by decide) t, after0_1]
theorem leaves0_2 (c : Dev nD) (t : Fin cfg0.N) :
    (dat0 V c).leavesExact 2 t = owns (c : Thread nD τ) (stage0 t).a4 fullShare (iblk0 V c 2 t) := by
  unfold Dat.leavesExact; rw [liveAt0 2 (by decide) t, after0_2]
theorem leaves0_3 (c : Dev nD) (t : Fin cfg0.N) :
    (dat0 V c).leavesExact 3 t = owns (c : Thread nD τ) (stage0 t).a5 fullShare (iblk0 V c 3 t) := by
  unfold Dat.leavesExact; rw [liveAt0 3 (by decide) t, after0_3]
theorem leaves0_4 (c : Dev nD) (t : Fin cfg0.N) :
    (dat0 V c).leavesExact 4 t = owns (c : Thread nD τ) (stage0 t).a6 fullShare (iblk0 V c 4 t) := by
  unfold Dat.leavesExact; rw [liveAt0 4 (by decide) t, after0_4]
theorem leaves0_5 (c : Dev nD) (t : Fin cfg0.N) :
    (dat0 V c).leavesExact 5 t = owns (c : Thread nD τ) (stage0 t).a7 fullShare (iblk0 V c 5 t) := by
  unfold Dat.leavesExact; rw [liveAt0 5 (by decide) t, after0_5]
theorem leaves0_6 (c : Dev nD) (t : Fin cfg0.N) :
    (dat0 V c).leavesExact 6 t = owns (c : Thread nD τ) (stage0 t).a8 fullShare (iblk0 V c 6 t) := by
  unfold Dat.leavesExact; rw [liveAt0 6 (by decide) t, after0_6]
theorem leaves0_7 (c : Dev nD) (t : Fin cfg0.N) :
    (dat0 V c).leavesExact 7 t = owns (c : Thread nD τ) (stage0 t).a9 fullShare (iblk0 V c 7 t) := by
  unfold Dat.leavesExact; rw [liveAt0 7 (by decide) t, after0_7]
theorem leaves0_8 (c : Dev nD) (t : Fin cfg0.N) :
    (dat0 V c).leavesExact 8 t = owns (c : Thread nD τ) (stage0 t).a10 fullShare (iblk0 V c 8 t) := by
  unfold Dat.leavesExact; rw [liveAt0 8 (by decide) t, after0_8]
theorem leaves0_9 (c : Dev nD) (t : Fin cfg0.N) :
    (dat0 V c).leavesExact 9 t = owns (c : Thread nD τ) (stage0 t).a11 fullShare (iblk0 V c 9 t) := by
  unfold Dat.leavesExact; rw [liveAt0 9 (by decide) t, after0_9]

theorem leaves0_10 (c : Dev nD) (t : Fin cfg0.N) (h : cond0_4 (grid0.coords t)) :
    (dat0 V c).leavesExact 10 t = owns (c : Thread nD τ) (stage0 t).a12 fullShare (h2Blk V c t) := by
  unfold Dat.leavesExact; rw [liveAt0_10 t h, after0_10]

theorem leaves0_11 (c : Dev nD) (t : Fin cfg0.N) (h : cond0_7 (grid0.coords t)) :
    (dat0 V c).leavesExact 11 t = owns (c : Thread nD τ) (stage0 t).a13 fullShare (coefB V c) := by
  unfold Dat.leavesExact; rw [liveAt0_11 t h, after0_11]

/-- The body at any point: the point's number selects one of five control cases. -/
theorem sound_body0 (c : Dev nD) (t : Fin cfg0.N) :
    bodyPre0 V c t ⊢ wp frame (wpE (defs₀ (F := F)) Variants.none c none) Set.univ (bodyAt0 t) (fun _ => bodyPost0 V c t) := by
  have hN := val_lt50 t
  obtain ⟨c1, c2, c3, c4, c5, c6, c7⟩ := hcond0 t
  unfold bodyPre0 bodyPost0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5, leaves0_6, leaves0_7, leaves0_8, leaves0_9]
  rw [Phi0_castSucc]
  by_cases ht : t.val = 0
  · have h1 := c1.mpr (by omega)
    have h2 := c2.not.mpr (by omega)
    have h3 := c3.mpr (by omega)
    have h4 := c4.not.mpr (by omega)
    have h5 := c5.mpr (by omega)
    have h6 := c6.not.mpr (by omega)
    have h7 := c7.not.mpr (by omega)
    rw [PhiS0_zero V c _ _ ht, PhiA0_eq]
    rw [Dat.leavesExact_idle (dat0 V c) 10 t (idleAt0_10 t h4) (noFlush0_10 t h4),
      Dat.leavesExact_idle (dat0 V c) 11 t (idleAt0_11 t h7) (noFlush0_11 t h7)]
    rw [suppAt_A V c t ht, stAt_A V c t ht]
    iintro ⟨⟨⟨⟨%d14, H14⟩, ⟨%f15, H15⟩, ⟨%d16, H16⟩, HO⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run0_A c Set.univ (grid0.coords t) h1 h2 h3 h4 h5 h6 h7 (stage0 t)
      (adjB V c t) (xB V c t) (w1B V c t) (w2B V c t) (b1B V c t) (b2B V c t) (g1B V c t) (g2B V c t) (be1B V c t) (be2B V c t)
      ((dat0 V c).before 10 t d10) ((dat0 V c).before 11 t d11) d14 f15 d16 _)
    unfold foot ins
    iframe H0 H1 H2 H3 H4 H5 H6 H7 H8 H9 H10 H11 H14 H15 H16
    iintro ⟨%f', %hw, ⟨H0, H1, H2, H3, H4, H5, H6, H7, H8, H9⟩, H10, H11, H14, H15, H16⟩
    iframe H14 H16 HO HR Ho H0 H1 H2 H3 H4 H5 H6 H7 H8 H9
    isplitl [H15]
    · iexists f'; iframe H15
      ipureintro
      refine H1Upto_step V c t (by omega) f15 f' (fun h => absurd ht h) ?_
      unfold suppA; rw [pt_of_val t 0 ht]; exact hw
    isplitl [H10]; · iexists d10; iexact H10
    iexists d11; iexact H11
  rw [PhiS0_pos V c _ _ ht]
  iintro ⟨⟨H14, ⟨%f15, H15, %hf⟩, H16, HO, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  by_cases h25 : t.val < 25
  · have h1 := c1.not.mpr (by omega)
    have h2 := c2.not.mpr (by omega)
    have h3 := c3.mpr (by omega)
    have h4 := c4.not.mpr (by omega)
    have h5 := c5.not.mpr (by omega)
    have h6 := c6.mpr (by omega)
    have h7 := c7.not.mpr (by omega)
    rw [Dat.leavesExact_idle (dat0 V c) 10 t (idleAt0_10 t h4) (noFlush0_10 t h4),
      Dat.leavesExact_idle (dat0 V c) 11 t (idleAt0_11 t h7) (noFlush0_11 t h7)]
    rw [suppAt_keep V c t (by omega), stAt_acc V c t (by omega)]
    iapply (run0_B c Set.univ (grid0.coords t) h1 h2 h3 h4 h5 h6 h7 (stage0 t)
      (adjB V c t) (xB V c t) (w1B V c t) (w2B V c t) (b1B V c t) (b2B V c t) (g1B V c t) (g2B V c t) (be1B V c t) (be2B V c t)
      ((dat0 V c).before 10 t d10) ((dat0 V c).before 11 t d11) (suppAt V c (t.val - 1)) f15 (stAt V c (t.val - 1)) _)
    unfold foot ins
    iframe H0 H1 H2 H3 H4 H5 H6 H7 H8 H9 H10 H11 H14 H15 H16
    iintro ⟨%f', %hw, ⟨H0, H1, H2, H3, H4, H5, H6, H7, H8, H9⟩, H10, H11, H14, H15, H16⟩
    iframe H14 H16 HO HR Ho H0 H1 H2 H3 H4 H5 H6 H7 H8 H9
    isplitl [H15]
    · iexists f'; iframe H15
      ipureintro
      refine H1Upto_step V c t h25 f15 f' (fun _ => hf) ?_
      rw [← suppAt_lt V c (t.val - 1) (by omega)]; exact hw
    isplitl [H10]; · iexists d10; iexact H10
    iexists d11; iexact H11
  replace ht : t.val ≠ 0 := ht
  by_cases ht : t.val = 25
  · have h1 := c1.not.mpr (by omega)
    have h2 := c2.mpr (by omega)
    have h3 := c3.not.mpr (by omega)
    have h4 := c4.mpr (by omega)
    have h5 := c5.mpr (by omega)
    have h6 := c6.not.mpr (by omega)
    have h7 := c7.not.mpr (by omega)
    rw [leaves0_10 V c t h4,
      Dat.leavesExact_idle (dat0 V c) 11 t (idleAt0_11 t h7) (noFlush0_11 t h7)]
    rw [suppAt_ge V c t.val (by omega), stAt_C V c t ht]; unfold h2Blk; rw [suppB_C V c t ht]
    obtain rfl : f15 = h1A V c := H1Upto_all V c (t.val - 1) (by omega) f15 hf
    iapply (run0_C c Set.univ (grid0.coords t) h1 h2 h3 h4 h5 h6 h7 (stage0 t)
      (adjB V c t) (xB V c t) (w1B V c t) (w2B V c t) (b1B V c t) (b2B V c t) (g1B V c t) (g2B V c t) (be1B V c t) (be2B V c t)
      ((dat0 V c).before 10 t d10) ((dat0 V c).before 11 t d11) (suppAt V c (t.val - 1)) (h1A V c) (stAt V c (t.val - 1)) _)
    unfold foot ins
    iframe H0 H1 H2 H3 H4 H5 H6 H7 H8 H9 H10 H11 H14 H15 H16
    iintro ⟨⟨H0, H1, H2, H3, H4, H5, H6, H7, H8, H9⟩, H10, H11, H14, H15, H16⟩
    iframe H14 H16 HO HR Ho H0 H1 H2 H3 H4 H5 H6 H7 H8 H9 H10
    isplitl [H15]
    · iexists (h1A V c); iframe H15
      ipureintro
      exact H1Upto_keep V c t.val (by omega) _ hf
    iexists d11; iexact H11
  by_cases h49 : t.val < 49
  · replace h25 : 25 < t.val := by omega
    have h1 := c1.not.mpr (by omega)
    have h2 := c2.not.mpr (by omega)
    have h3 := c3.not.mpr (by omega)
    have h4 := c4.mpr (by omega)
    have h5 := c5.not.mpr (by omega)
    have h6 := c6.mpr (by omega)
    have h7 := c7.not.mpr (by omega)
    rw [leaves0_10 V c t h4,
      Dat.leavesExact_idle (dat0 V c) 11 t (idleAt0_11 t h7) (noFlush0_11 t h7)]
    rw [suppAt_keep V c t (by omega), stAt_acc V c t (by omega)]; unfold h2Blk; rw [← suppAt_ge V c (t.val - 1) (by omega)]
    iapply (run0_D c Set.univ (grid0.coords t) h1 h2 h3 h4 h5 h6 h7 (stage0 t)
      (adjB V c t) (xB V c t) (w1B V c t) (w2B V c t) (b1B V c t) (b2B V c t) (g1B V c t) (g2B V c t) (be1B V c t) (be2B V c t)
      ((dat0 V c).before 10 t d10) ((dat0 V c).before 11 t d11) (suppAt V c (t.val - 1)) f15 (stAt V c (t.val - 1)) _)
    unfold foot ins
    iframe H0 H1 H2 H3 H4 H5 H6 H7 H8 H9 H10 H11 H14 H15 H16
    iintro ⟨⟨H0, H1, H2, H3, H4, H5, H6, H7, H8, H9⟩, H10, H11, H14, H15, H16⟩
    iframe H14 H16 HO HR Ho H0 H1 H2 H3 H4 H5 H6 H7 H8 H9 H10
    isplitl [H15]
    · iexists f15; iframe H15
      ipureintro
      exact H1Upto_keep V c t.val (by omega) _ hf
    iexists d11; iexact H11
  replace ht : t.val = 49 := by omega
  have h1 := c1.not.mpr (by omega)
  have h2 := c2.not.mpr (by omega)
  have h3 := c3.not.mpr (by omega)
  have h4 := c4.mpr (by omega)
  have h5 := c5.not.mpr (by omega)
  have h6 := c6.mpr (by omega)
  have h7 := c7.mpr (by omega)
  rw [leaves0_10 V c t h4, leaves0_11 V c t h7]
  rw [coefB_E V c t ht, suppAt_keep V c t (by omega), stAt_acc V c t (by omega)]; unfold h2Blk; rw [← suppAt_ge V c (t.val - 1) (by omega)]
  iapply (run0_E c Set.univ (grid0.coords t) h1 h2 h3 h4 h5 h6 h7 (stage0 t)
    (adjB V c t) (xB V c t) (w1B V c t) (w2B V c t) (b1B V c t) (b2B V c t) (g1B V c t) (g2B V c t) (be1B V c t) (be2B V c t)
    ((dat0 V c).before 10 t d10) ((dat0 V c).before 11 t d11) (suppAt V c (t.val - 1)) f15 (stAt V c (t.val - 1)) _)
  unfold foot ins
  iframe H0 H1 H2 H3 H4 H5 H6 H7 H8 H9 H10 H11 H14 H15 H16
  iintro ⟨⟨H0, H1, H2, H3, H4, H5, H6, H7, H8, H9⟩, H10, H11, H14, H15, H16⟩
  iframe H14 H16 HO HR Ho H0 H1 H2 H3 H4 H5 H6 H7 H8 H9 H10 H11
  iexists f15; iframe H15
  ipureintro
  exact H1Upto_keep V c t.val (by omega) _ hf

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 50 := N_0; omega), PhiA0_eq]
  iintro ⟨H14, ⟨%f, H15, %hf⟩, H16, HO, HR⟩
  isplitr [HR]
  · isplitl [H14]; · iexists _; iexact H14
    isplitl [H15]; · iexists _; iexact H15
    isplitl [H16]; · iexists _; iexact H16
    iexact HO
  · iexact HR

end Cert.Kernel.Hand

end
-- ==== Proof.BReg1.lean ====
import proofs.«112434_g77017353552286_cont_9to1c4b_820_16_alg».proof.Proof.BData
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem cover1_2 (p0 : Vec F S2000x256 .f32) (y : S2000x256.Idx) :
    ∃ pc ∈ ([⟨r1full, p0⟩] : List (View.Piece (Elt F) S2000x256 .f32)), y ∈ pc.1.set :=
  View.cover_of_tiled [⟨r1full, p0⟩] S2000x256.size (by rfl) y

set_option maxHeartbeats 1000000 in

theorem sound_kernel1 (c : Dev nD) (E : Set ℕ) (i : grid1.Coords)
    (arg1 : Memref sig .tc .vmem S2000x256 .bf16) (harg1 : arg1.IsWhole)
    (arg2 : Memref sig .tc .vmem S2x256 .f32) (harg2 : arg2.IsWhole)
    (arg3 : Memref sig .tc .vmem S2000x256 .f32) (harg3 : arg3.IsWhole)
    (x0 : Vec F S2000x256 .bf16) (x1 : Vec F S2x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__tanh_kern i arg1 harg1 arg2 harg2 arg3 harg3) K := by
  simp only [cc1__tanh_kern_eq_skeleton]; unfold cc1__tanh_kern_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  iframe H0 H1
  isplitl [H2]; · iexists _; iexact H2
  iintro ⟨H0, H1, H2⟩
  iframe HΦ Ho H0 H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BRun.lean ====
import proofs.«112434_g77017353552286_cont_9to1c4b_820_16_alg».proof.Proof.BFrame0
import proofs.«112434_g77017353552286_cont_9to1c4b_820_16_alg».proof.Proof.BReg1
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

theorem W1_of (c : Dev nD) (b : Ref sig .tc) (hb : b ∉ ([main_v0, main_v1, main_v2, main_v3, main_v4, main_v5] : List (Ref sig .tc))) :
    W1 m c (Proc.devRef .tc b) = W0 m c (Proc.devRef .tc b) :=
  StableHlo.after_of_forall_not_mem (b := Proc.devRef .tc b) _ _ (List.forall_iff_forall_mem.mp (by
    simp only [hostOps0, List.Forall, StableHlo.reshape_writes, Finset.mem_singleton]
    refine ⟨?_, ?_, ?_, ?_, ?_, ?_⟩ <;>
      exact StableHlo.devRef_ne_of_ne (fun e => hb (by subst e; simp))))

theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

/-- A buffer that no host operation writes and no region writes back ends as launched. -/
theorem W3_arg (c : Dev nD) (b : Ref sig .tc) (h3 : ∀ w, Pipeline.arrRef spec1 w ≠ b)
    (h2 : (∀ w, Pipeline.arrRef spec0 w ≠ b) ∨ ∃ w, (cfg0.win w).isOut = false ∧ Pipeline.arrRef spec0 w = b)
    (h1 : b ∉ ([main_v0, main_v1, main_v2, main_v3, main_v4, main_v5] : List (Ref sig .tc))) :
    W3 m c (Proc.devRef .tc b) = m ((c : Thread nD τ).loc b) :=
  (W3_of_ne m c b h3).trans <| (h2.elim (W2_of_ne m c b) fun ⟨w, hw, e⟩ => by subst e; exact W2_in m c w hw).trans <|
    (W1_of m c b h1).trans rfl

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (V1 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in

theorem run_main : θ_run defs (onTc (τ := τ) (main (F := F))) ⟨m, fun _ => 0, ρ⟩ (fun r => ∀ c : Dev nD,
      r.2.mem ((c.tc : Thread nD τ).loc main_v7) = W3 m c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨h c _ (mem_uc main_v7 (by decide)),
        (h c _ (mem_uc main_arg0 (by decide))).trans (W3_arg m c main_arg0 (by decide) (by decide) (by decide)),
        (h c _ (mem_uc main_arg1 (by decide))).trans (W3_arg m c main_arg1 (by decide) (by decide) (by decide)),
        (h c _ (mem_uc main_arg2 (by decide))).trans (W3_arg m c main_arg2 (by decide) (by decide) (by decide)),
        (h c _ (mem_uc main_arg3 (by decide))).trans (W3_arg m c main_arg3 (by decide) (by decide) (by decide)),
        (h c _ (mem_uc main_arg4 (by decide))).trans (W3_arg m c main_arg4 (by decide) (by decide) (by decide)),
        (h c _ (mem_uc main_arg5 (by decide))).trans (W3_arg m c main_arg5 (by decide) (by decide) (by decide)),
        (h c _ (mem_uc main_arg6 (by decide))).trans (W3_arg m c main_arg6 (by decide) (by decide) (by decide)),
        (h c _ (mem_uc main_arg7 (by decide))).trans (W3_arg m c main_arg7 (by decide) (by decide) (by decide)),
        (h c _ (mem_uc main_arg8 (by decide))).trans (W3_arg m c main_arg8 (by decide) (by decide) (by decide)),
        (h c _ (mem_uc main_arg9 (by decide))).trans (W3_arg m c main_arg9 (by decide) (by decide) (by decide))⟩)

end Cert.Kernel.Hand

end
-- ==== Proof.RefOps.lean ====
import proofs.«112434_g77017353552286_cont_9to1c4b_820_16_alg».proof.Proof.Gen.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

abbrev ops : List (HloOp τ sig (Elt F)) :=
  [ binary main_arg0 main_arg2 main_v0 (fun l r => Host.dotGeneral dot_S10000x256_S256x256_S10000x256_1_0_0_1_n_n none l r),
    binary main_arg1 main_v0 main_v1 (fun l r => Host.dotGeneral dot_S10000x10000_S10000x256_S10000x256_1_0_0_1_n_n none l r),
    unary main_arg3 main_v2 (broadcastInDim S1x256 ![1] bcast_S256_S1x256_1),
    unary main_v2 main_v3 (broadcastInDim S10000x256 ![0, 1] bcast_S1x256_S10000x256_0_1),
    binary main_v1 main_v3 main_v4 addf,
    nullary main_cst (constant S_ .f32 0x00000000#32),
    binary main_v4 main_cst main_v5 (fun x v => Host.reduceAdd x v reducesTo_S10000x256_S256_d0 h_S_),
    nullary main_cst_0 (constant S_ .f32 0x461C4000#32),
    unary main_cst_0 main_v6 (broadcastInDim S256 ![] bcast_S_S256),
    binary main_v5 main_v6 main_v7 Host.divf,
    nullary main_c (constantI S_ 32 0#32),
    TRef.nullary main_call0.cst (constant S_ .f32 0x00000000#32),
    TRef.binary (.of main_v4) main_call0.cst main_call0.v0 (fun x v => Host.reduceAdd x v reducesTo_S10000x256_S256_d0 h_S_),
    TRef.unary main_call0.v0 main_call0.v1 (broadcastInDim S1x256 ![1] bcast_S256_S1x256_1),
    TRef.nullary main_call0.cst_0 (constant S_ .f32 0x461C4000#32),
    TRef.unary main_call0.cst_0 main_call0.v2 (broadcastInDim S1x256 ![] bcast_S_S1x256),
    TRef.binary main_call0.v1 main_call0.v2 main_call0.v3 Host.divf,
    TRef.unary main_call0.v3 main_call0.v4 (broadcastInDim S10000x256 ![0, 1] bcast_S1x256_S10000x256_0_1),
    TRef.binary (.of main_v4) main_call0.v4 main_call0.v5 subf,
    TRef.binary main_call0.v5 main_call0.v5 main_call0.v6 mulf,
    TRef.unary (.of main_c) main_call0.v7 (sitofp .f32),
    TRef.nullary main_call0.cst_1 (constant S_ .f32 0x461C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x256_S256_d0 h_S_),
    TRef.unary main_call0.v8 main_call0.v10 (broadcastInDim S256 ![] bcast_S_S256),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S256 ![] bcast_S_S256),
    TRef.ternary main_call0.v12 main_call0.v11 main_call0.call0.v1 main_call0.call0.v2 (fun p a b => select (broadcastInDim S256 ![] bcast_S_S256 p) a b),
    unary main_v7 main_v9 (broadcastInDim S1x256 ![1] bcast_S256_S1x256_1),
    unary main_v9 main_v10 (broadcastInDim S10000x256 ![0, 1] bcast_S1x256_S10000x256_0_1),
    binary main_v4 main_v10 main_v11 subf,
    nullary main_cst_1 (constant S_ .f32 0x3727C5AC#32),
    unary main_cst_1 main_v12 (broadcastInDim S256 ![] bcast_S_S256),
    binary main_v8 main_v12 main_v13 addf,
    unary main_v13 main_v14 Host.sqrt,
    unary main_v14 main_v15 (broadcastInDim S1x256 ![1] bcast_S256_S1x256_1),
    unary main_v15 main_v16 (broadcastInDim S10000x256 ![0, 1] bcast_S1x256_S10000x256_0_1),
    binary main_v11 main_v16 main_v17 Host.divf,
    unary main_arg4 main_v18 (broadcastInDim S1x256 ![1] bcast_S256_S1x256_1),
    unary main_v18 main_v19 (broadcastInDim S10000x256 ![0, 1] bcast_S1x256_S10000x256_0_1),
    binary main_v17 main_v19 main_v20 mulf,
    unary main_arg5 main_v21 (broadcastInDim S1x256 ![1] bcast_S256_S1x256_1),
    unary main_v21 main_v22 (broadcastInDim S10000x256 ![0, 1] bcast_S1x256_S10000x256_0_1),
    binary main_v20 main_v22 main_v23 addf,
    binary main_v23 main_arg6 main_v24 (fun l r => Host.dotGeneral dot_S10000x256_S256x256_S10000x256_1_0_0_1_n_n none l r),
    binary main_arg1 main_v24 main_v25 (fun l r => Host.dotGeneral dot_S10000x10000_S10000x256_S10000x256_1_0_0_1_n_n none l r),
    unary main_arg7 main_v26 (broadcastInDim S1x256 ![1] bcast_S256_S1x256_1),
    unary main_v26 main_v27 (broadcastInDim S10000x256 ![0, 1] bcast_S1x256_S10000x256_0_1),
    binary main_v25 main_v27 main_v28 addf,
    nullary main_cst_2 (constant S_ .f32 0x00000000#32),
    binary main_v28 main_cst_2 main_v29 (fun x v => Host.reduceAdd x v reducesTo_S10000x256_S256_d0 h_S_),
    nullary main_cst_3 (constant S_ .f32 0x461C4000#32),
    unary main_cst_3 main_v30 (broadcastInDim S256 ![] bcast_S_S256),
    binary main_v29 main_v30 main_v31 Host.divf,
    nullary main_c_4 (constantI S_ 32 0#32),
    TRef.nullary main_call1.cst (constant S_ .f32 0x00000000#32),
    TRef.binary (.of main_v28) main_call1.cst main_call1.v0 (fun x v => Host.reduceAdd x v reducesTo_S10000x256_S256_d0 h_S_),
    TRef.unary main_call1.v0 main_call1.v1 (broadcastInDim S1x256 ![1] bcast_S256_S1x256_1),
    TRef.nullary main_call1.cst_0 (constant S_ .f32 0x461C4000#32),
    TRef.unary main_call1.cst_0 main_call1.v2 (broadcastInDim S1x256 ![] bcast_S_S1x256),
    TRef.binary main_call1.v1 main_call1.v2 main_call1.v3 Host.divf,
    TRef.unary main_call1.v3 main_call1.v4 (broadcastInDim S10000x256 ![0, 1] bcast_S1x256_S10000x256_0_1),
    TRef.binary (.of main_v28) main_call1.v4 main_call1.v5 subf,
    TRef.binary main_call1.v5 main_call1.v5 main_call1.v6 mulf,
    TRef.unary (.of main_c_4) main_call1.v7 (sitofp .f32),
    TRef.nullary main_call1.cst_1 (constant S_ .f32 0x461C4000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S10000x256_S256_d0 h_S_),
    TRef.unary main_call1.v8 main_call1.v10 (broadcastInDim S256 ![] bcast_S_S256),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S256 ![] bcast_S_S256),
    TRef.ternary main_call1.v12 main_call1.v11 main_call1.call0.v1 main_call1.call0.v2 (fun p a b => select (broadcastInDim S256 ![] bcast_S_S256 p) a b),
    unary main_v31 main_v33 (broadcastInDim S1x256 ![1] bcast_S256_S1x256_1),
    unary main_v33 main_v34 (broadcastInDim S10000x256 ![0, 1] bcast_S1x256_S10000x256_0_1),
    binary main_v28 main_v34 main_v35 subf,
    nullary main_cst_5 (constant S_ .f32 0x3727C5AC#32),
    unary main_cst_5 main_v36 (broadcastInDim S256 ![] bcast_S_S256),
    binary main_v32 main_v36 main_v37 addf,
    unary main_v37 main_v38 Host.sqrt,
    unary main_v38 main_v39 (broadcastInDim S1x256 ![1] bcast_S256_S1x256_1),
    unary main_v39 main_v40 (broadcastInDim S10000x256 ![0, 1] bcast_S1x256_S10000x256_0_1),
    binary main_v35 main_v40 main_v41 Host.divf,
    unary main_arg8 main_v42 (broadcastInDim S1x256 ![1] bcast_S256_S1x256_1),
    unary main_v42 main_v43 (broadcastInDim S10000x256 ![0, 1] bcast_S1x256_S10000x256_0_1),
    binary main_v41 main_v43 main_v44 mulf,
    unary main_arg9 main_v45 (broadcastInDim S1x256 ![1] bcast_S256_S1x256_1),
    unary main_v45 main_v46 (broadcastInDim S10000x256 ![0, 1] bcast_S1x256_S10000x256_0_1),
    binary main_v44 main_v46 main_v47 addf,
    unary main_v47 main_v48 Host.tanh ]

set_option maxRecDepth 16384 in

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., unary_bufs_sub ..⟩

end Cert.ReferenceIdeal.Hand

end
-- ==== Proof.RefOut.lean ====
import proofs.«112434_g77017353552286_cont_9to1c4b_820_16_alg».proof.Proof.RefOps

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

def rowsT (v : FVec F S256 .f32) : FVec F S10000x256 .f32 :=
  broadcastInDim S10000x256 ![0, 1] bcast_S1x256_S10000x256_0_1 (broadcastInDim S1x256 ![1] bcast_S256_S1x256_1 v)

def preT (adj : FVec F S10000x10000 .f32) (x : FVec F S10000x256 .f32) (W : FVec F S256x256 .f32) (b : FVec F S256 .f32) :
    FVec F S10000x256 .f32 :=
  addf (Host.dotGeneral dot_S10000x10000_S10000x256_S10000x256_1_0_0_1_n_n none adj
      (Host.dotGeneral dot_S10000x256_S256x256_S10000x256_1_0_0_1_n_n none x W)) (rowsT b)

def sumT (h : FVec F S10000x256 .f32) : FVec F S256 .f32 :=
  Host.reduceAdd h (constant S_ .f32 0x00000000#32) reducesTo_S10000x256_S256_d0 h_S_

def meanT (h : FVec F S10000x256 .f32) : FVec F S256 .f32 :=
  Host.divf (sumT h) (broadcastInDim S256 ![] bcast_S_S256 (constant S_ .f32 0x461C4000#32))

def devT (h : FVec F S10000x256 .f32) : FVec F S10000x256 .f32 :=
  subf h (broadcastInDim S10000x256 ![0, 1] bcast_S1x256_S10000x256_0_1
    (Host.divf (broadcastInDim S1x256 ![1] bcast_S256_S1x256_1 (sumT h))
      (broadcastInDim S1x256 ![] bcast_S_S1x256 (constant S_ .f32 0x461C4000#32))))

def cntT : FVec F S_ .f32 :=
  subf (constant S_ .f32 0x461C4000#32) (sitofp .f32 (constantI S_ 32 0#32))

def varT (h : FVec F S10000x256 .f32) : FVec F S256 .f32 :=
  select (broadcastInDim S256 ![] bcast_S_S256 (cmpf .ogt (cntT (F := F)) (constant S_ .f32 0x00000000#32)))
    (Host.divf (sumT (mulf (devT h) (devT h))) (broadcastInDim S256 ![] bcast_S_S256 cntT))
    (broadcastInDim S256 ![] bcast_S_S256 (id (constant S_ .f32 0x7FC00000#32)))

def bnT (h : FVec F S10000x256 .f32) (g be : FVec F S256 .f32) : FVec F S10000x256 .f32 :=
  addf (mulf (Host.divf (subf h (rowsT (meanT h)))
      (rowsT (Host.sqrt (addf (varT h) (broadcastInDim S256 ![] bcast_S_S256 (constant S_ .f32 0x3727C5AC#32))))))
    (rowsT g)) (rowsT be)

def outT (x : FVec F S10000x256 .f32) (adj : FVec F S10000x10000 .f32)
    (W1 : FVec F S256x256 .f32) (b1 g1 be1 : FVec F S256 .f32)
    (W2 : FVec F S256x256 .f32) (b2 g2 be2 : FVec F S256 .f32) : FVec F S10000x256 .f32 :=
  Host.tanh (bnT (preT adj (bnT (preT adj x W1 b1) g1 be1) W2 b2) g2 be2)

set_option maxRecDepth 16384 in
set_option maxHeartbeats 1000000 in

theorem out_eq (V : Valuation τ sig (Elt F)) :
    after ops V (main_v48 : DevRef τ sig)
      = outT (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  after_results_simp
  rfl

end Cert.ReferenceIdeal.Hand

end
-- ==== Proof.RefArgs.lean ====
import proofs.«112434_g77017353552286_cont_9to1c4b_820_16_alg».proof.Proof.RefOps

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

set_option maxRecDepth 16384 in
set_option maxHeartbeats 1000000 in
theorem arg0_eq (V : Valuation τ sig (Elt F)) :
    after ops V (main_arg0 : DevRef τ sig) = V (main_arg0 : DevRef τ sig) := by
  after_results_simp

set_option maxRecDepth 16384 in
set_option maxHeartbeats 1000000 in
theorem arg1_eq (V : Valuation τ sig (Elt F)) :
    after ops V (main_arg1 : DevRef τ sig) = V (main_arg1 : DevRef τ sig) := by
  after_results_simp

set_option maxRecDepth 16384 in
set_option maxHeartbeats 1000000 in
theorem arg2_eq (V : Valuation τ sig (Elt F)) :
    after ops V (main_arg2 : DevRef τ sig) = V (main_arg2 : DevRef τ sig) := by
  after_results_simp

set_option maxRecDepth 16384 in
set_option maxHeartbeats 1000000 in
theorem arg3_eq (V : Valuation τ sig (Elt F)) :
    after ops V (main_arg3 : DevRef τ sig) = V (main_arg3 : DevRef τ sig) := by
  after_results_simp

set_option maxRecDepth 16384 in
set_option maxHeartbeats 1000000 in
theorem arg4_eq (V : Valuation τ sig (Elt F)) :
    after ops V (main_arg4 : DevRef τ sig) = V (main_arg4 : DevRef τ sig) := by
  after_results_simp

set_option maxRecDepth 16384 in
set_option maxHeartbeats 1000000 in
theorem arg5_eq (V : Valuation τ sig (Elt F)) :
    after ops V (main_arg5 : DevRef τ sig) = V (main_arg5 : DevRef τ sig) := by
  after_results_simp

set_option maxRecDepth 16384 in
set_option maxHeartbeats 1000000 in
theorem arg6_eq (V : Valuation τ sig (Elt F)) :
    after ops V (main_arg6 : DevRef τ sig) = V (main_arg6 : DevRef τ sig) := by
  after_results_simp

set_option maxRecDepth 16384 in
set_option maxHeartbeats 1000000 in
theorem arg7_eq (V : Valuation τ sig (Elt F)) :
    after ops V (main_arg7 : DevRef τ sig) = V (main_arg7 : DevRef τ sig) := by
  after_results_simp

set_option maxRecDepth 16384 in
set_option maxHeartbeats 1000000 in
theorem arg8_eq (V : Valuation τ sig (Elt F)) :
    after ops V (main_arg8 : DevRef τ sig) = V (main_arg8 : DevRef τ sig) := by
  after_results_simp

set_option maxRecDepth 16384 in
set_option maxHeartbeats 1000000 in
theorem arg9_eq (V : Valuation τ sig (Elt F)) :
    after ops V (main_arg9 : DevRef τ sig) = V (main_arg9 : DevRef τ sig) := by
  after_results_simp

end Cert.ReferenceIdeal.Hand

end
-- ==== Proof.RefRun.lean ====
import proofs.«112434_g77017353552286_cont_9to1c4b_820_16_alg».proof.Proof.RefOut
import proofs.«112434_g77017353552286_cont_9to1c4b_820_16_alg».proof.Proof.RefArgs

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v48)
          = outT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v48).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.Hand

end
-- ==== Proof.RefValue.lean ====
import proofs.«112434_g77017353552286_cont_9to1c4b_820_16_alg».proof.Proof.RefRun
import proofs.«112434_g77017353552286_cont_9to1c4b_820_16_alg».proof.Proof.Spec
import Idealize.ShloMosaic.Lib.ValueIdx
import Idealize.ShloMosaic.Lib.Pipeline.Value
import Idealize.ShloMosaic.Lib.StackMember
import Idealize.ShloMosaic.PureOps.Ideal.Laws

noncomputable section

namespace Cert.ReferenceIdeal.Hand

open Cert.ReferenceIdeal Cert.ReferenceIdeal.Facts₀ Idealize.ShloMosaic Idealize.ShloMosaic.TcCoe Idealize.SL.Sem Idealize.ShloMosaic.StableHlo

open Idealize.ShloMosaic.ValueIdx

section Broadcasts
variable {α : Type}

theorem unitRow_apply (v : S256.Idx → α) (j : Fin 256) :
    broadcastInDim S1x256 ![1] bcast_S256_S1x256_1 v (ix2 (0 : Fin 1) j) = v (ix1 j) :=
  broadcastInDim_apply _ _ v _ _ (fun a => by match a with | ⟨0, _⟩ => rfl)

theorem everyRow_apply (v : S1x256.Idx → α) (i : Fin 10000) (j : Fin 256) :
    broadcastInDim S10000x256 ![0, 1] bcast_S1x256_S10000x256_0_1 v (ix2 i j) = v (ix2 (0 : Fin 1) j) :=
  broadcastInDim_apply _ _ v _ _ (fun a => by match a with | ⟨0, _⟩ => rfl | ⟨1, _⟩ => rfl)

theorem splat_apply (v : S_.Idx → α) (y : S256.Idx) : broadcastInDim S256 ![] bcast_S_S256 v y = v ix0 :=
  broadcastInDim_apply _ _ v _ _ (fun a => a.elim0)

theorem splatRow_apply (v : S_.Idx → α) (y : S1x256.Idx) : broadcastInDim S1x256 ![] bcast_S_S1x256 v y = v ix0 :=
  broadcastInDim_apply _ _ v _ _ (fun a => a.elim0)

end Broadcasts

theorem rowsT_apply (v : FVec Ideal S256 .f32) (i : Fin 10000) (j : Fin 256) : rowsT v (ix2 i j) = v (ix1 j) := by
  unfold rowsT
  rw [everyRow_apply, unitRow_apply]

theorem tenK_eq : Ideal.ofBits .f32 0x461C4000#32 = Spec.cN := by
  unfold Spec.cN
  simp [Ideal.ofBits, Ideal.ieee, -EReal.coe_mul]
  norm_num

theorem cntT_eq : cntT (F := Ideal) ix0 = Spec.cN := by
  show Ideal.ofBits .f32 0x461C4000#32 - (((0#32 : BitVec 32).toInt : ℝ) : EReal) = Spec.cN
  rw [tenK_eq]
  simp

theorem cnt_pos : Ideal.cmp .ogt Spec.cN (Ideal.ofBits .f32 0x00000000#32) = 1#1 := by
  rw [Ideal.ofBits_zero_f32]
  unfold Ideal.cmp Spec.cN
  simp

theorem preT_apply (adj : FVec Ideal S10000x10000 .f32) (x : FVec Ideal S10000x256 .f32) (W : FVec Ideal S256x256 .f32)
    (b : FVec Ideal S256 .f32) (i : Fin 10000) (j : Fin 256) :
    preT adj x W b (ix2 i j) = Spec.raw (Spec.m2 adj) (Spec.m2 x) (Spec.m2 W) i j + Spec.m1 b j := by
  unfold preT
  rw [addf_apply, rowsT_apply]
  refine congrArg (· + b (ix1 j)) ?_
  show Host.dotGeneral (DotDims.plain 10000 10000 256) none adj
      (Host.dotGeneral (DotDims.plain 10000 256 256) none x W) (ix2 i j) = _
  rw [StackMember.dotGeneral_plain_apply]
  unfold Spec.raw Spec.mm
  refine Finset.sum_congr rfl fun l _ => ?_
  rw [StackMember.dotGeneral_plain_apply]

theorem sumT_apply (h : FVec Ideal S10000x256 .f32) (j : Fin 256) : sumT h (ix1 j) = ∑ i : Fin 10000, h (ix2 i j) := by
  have hr : S10000x256.Reduces [0] S256 := by decide
  show Ideal.hostReduceAdd reducesTo_S10000x256_S256_d0 h (Ideal.ofBits .f32 0x00000000#32) (ix1 j) = _
  rw [Ideal.hostReduceAdd_single _ hr, Ideal.ofBits_zero_f32, zero_add]
  refine Finset.sum_congr rfl fun i _ => congrArg h ?_
  funext a
  match a with
  | ⟨0, _⟩ => rfl
  | ⟨1, _⟩ => rfl

theorem meanT_apply (h : FVec Ideal S10000x256 .f32) (j : Fin 256) : meanT h (ix1 j) = Spec.mean (Spec.m2 h) j := by
  show Ideal.div (sumT h (ix1 j))
      (broadcastInDim S256 ![] bcast_S_S256 (constant (F := Ideal) S_ .f32 0x461C4000#32) (ix1 j)) = _
  rw [splat_apply, sumT_apply, constant_apply, tenK_eq]
  rfl

theorem devT_apply (h : FVec Ideal S10000x256 .f32) (i : Fin 10000) (j : Fin 256) :
    devT h (ix2 i j) = h (ix2 i j) - Spec.mean (Spec.m2 h) j := by
  unfold devT
  rw [subf_apply, everyRow_apply]
  show _ - Ideal.div (broadcastInDim S1x256 ![1] bcast_S256_S1x256_1 (sumT h) (ix2 (0 : Fin 1) j))
      (broadcastInDim S1x256 ![] bcast_S_S1x256 (constant (F := Ideal) S_ .f32 0x461C4000#32) (ix2 (0 : Fin 1) j)) = _
  rw [unitRow_apply, splatRow_apply, sumT_apply, constant_apply, tenK_eq]
  rfl

theorem varT_apply (h : FVec Ideal S10000x256 .f32) (j : Fin 256) : varT h (ix1 j) = Spec.var (Spec.m2 h) j := by
  unfold varT
  rw [select_apply, splat_apply, cmpf_apply]
  show Scalar.select (Ideal.cmp .ogt (cntT (F := Ideal) ix0) (Ideal.ofBits .f32 0x00000000#32)) _ _ = _
  rw [cntT_eq, cnt_pos, select_one]
  show Ideal.div (sumT (mulf (devT h) (devT h)) (ix1 j)) (broadcastInDim S256 ![] bcast_S_S256 (cntT (F := Ideal)) (ix1 j)) = _
  rw [splat_apply, cntT_eq, sumT_apply]
  unfold Spec.var
  refine congrArg (Ideal.div · Spec.cN) (Finset.sum_congr rfl fun i _ => ?_)
  rw [mulf_apply, devT_apply]

theorem bnT_apply (h : FVec Ideal S10000x256 .f32) (g be : FVec Ideal S256 .f32) (i : Fin 10000) (j : Fin 256) :
    bnT h g be (ix2 i j) = Spec.bnRef (Spec.m2 h) (Spec.m1 g) (Spec.m1 be) i j := by
  unfold bnT
  rw [addf_apply, mulf_apply, rowsT_apply, rowsT_apply]
  show Ideal.div (subf h (rowsT (meanT h)) (ix2 i j)) (rowsT (Host.sqrt (addf (varT h)
      (broadcastInDim S256 ![] bcast_S_S256 (constant (F := Ideal) S_ .f32 0x3727C5AC#32)))) (ix2 i j)) * _ + _ = _
  rw [subf_apply, rowsT_apply, rowsT_apply, meanT_apply]
  show Ideal.div _ (Ideal.sqrt (addf (varT h)
      (broadcastInDim S256 ![] bcast_S_S256 (constant (F := Ideal) S_ .f32 0x3727C5AC#32)) (ix1 j))) * _ + _ = _
  rw [addf_apply, varT_apply, splat_apply, constant_apply]
  rfl

theorem m2_preT (adj : FVec Ideal S10000x10000 .f32) (x : FVec Ideal S10000x256 .f32) (W : FVec Ideal S256x256 .f32)
    (b : FVec Ideal S256 .f32) :
    Spec.m2 (preT adj x W b) = fun i j => Spec.raw (Spec.m2 adj) (Spec.m2 x) (Spec.m2 W) i j + Spec.m1 b j :=
  funext fun i => funext fun j => preT_apply adj x W b i j

theorem m2_bnT (h : FVec Ideal S10000x256 .f32) (g be : FVec Ideal S256 .f32) :
    Spec.m2 (bnT h g be) = Spec.bnRef (Spec.m2 h) (Spec.m1 g) (Spec.m1 be) :=
  funext fun i => funext fun j => bnT_apply h g be i j

theorem m2_layer (adj : FVec Ideal S10000x10000 .f32) (x : FVec Ideal S10000x256 .f32) (W : FVec Ideal S256x256 .f32)
    (b g be : FVec Ideal S256 .f32) :
    Spec.m2 (bnT (preT adj x W b) g be)
      = Spec.layerRef (Spec.m2 adj) (Spec.m2 x) (Spec.m2 W) (Spec.m1 b) (Spec.m1 g) (Spec.m1 be) := by
  rw [m2_bnT, m2_preT]
  rfl

theorem outT_eq (x : FVec Ideal S10000x256 .f32) (adj : FVec Ideal S10000x10000 .f32)
    (W1 : FVec Ideal S256x256 .f32) (b1 g1 be1 : FVec Ideal S256 .f32)
    (W2 : FVec Ideal S256x256 .f32) (b2 g2 be2 : FVec Ideal S256 .f32) :
    outT x adj W1 b1 g1 be1 W2 b2 g2 be2
      = Spec.a2 (Spec.outRef (Spec.m2 x) (Spec.m2 adj) (Spec.m2 W1) (Spec.m1 b1) (Spec.m1 g1) (Spec.m1 be1)
          (Spec.m2 W2) (Spec.m1 b2) (Spec.m1 g2) (Spec.m1 be2)) := by
  funext y
  obtain ⟨i, j, rfl⟩ : ∃ (i : Fin 10000) (j : Fin 256), y = ix2 i j := ⟨y 0, y 1, eq_ix2 y⟩
  show Ideal.tanh (bnT (preT adj (bnT (preT adj x W1 b1) g1 be1) W2 b2) g2 be2 (ix2 i j)) = Ideal.tanh _
  refine congrArg Ideal.tanh ?_
  have h2 := congrFun (congrFun (m2_layer adj (bnT (preT adj x W1 b1) g1 be1) W2 b2 g2 be2) i) j
  rw [m2_layer adj x W1 b1 g1 be1] at h2
  exact h2

end Cert.ReferenceIdeal.Hand

open Idealize.ShloMosaic Idealize.ShloMosaic.TcCoe Idealize.SL.Sem Cert.ReferenceIdeal in

theorem Cert.ReferenceIdeal.Hand.run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v48)
          = Cert.Spec.a2 (Cert.Spec.outRef (Cert.Spec.m2 (m ((c.tc : Thread nD τ).loc main_arg0))) (Cert.Spec.m2 (m ((c.tc : Thread nD τ).loc main_arg1)))
                (Cert.Spec.m2 (m ((c.tc : Thread nD τ).loc main_arg2))) (Cert.Spec.m1 (m ((c.tc : Thread nD τ).loc main_arg3))) (Cert.Spec.m1 (m ((c.tc : Thread nD τ).loc main_arg4))) (Cert.Spec.m1 (m ((c.tc : Thread nD τ).loc main_arg5)))
                (Cert.Spec.m2 (m ((c.tc : Thread nD τ).loc main_arg6))) (Cert.Spec.m1 (m ((c.tc : Thread nD τ).loc main_arg7))) (Cert.Spec.m1 (m ((c.tc : Thread nD τ).loc main_arg8))) (Cert.Spec.m1 (m ((c.tc : Thread nD τ).loc main_arg9))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono (fun _ h c => ⟨(h c).1.trans (Cert.ReferenceIdeal.Hand.outT_eq ..), (h c).2⟩)
    (Cert.ReferenceIdeal.Hand.run m ρ)

end
-- ==== Proof.Bridge.lean ====
import proofs.«112434_g77017353552286_cont_9to1c4b_820_16_alg».proof.Proof.Spec
import proofs.«112434_g77017353552286_cont_9to1c4b_820_16_alg».proof.Proof.LibPropagate
import Mathlib.Analysis.Real.Sqrt
import Mathlib.Data.EReal.Operations
import Mathlib.Algebra.BigOperators.Ring.Finset
import Mathlib.Algebra.Order.BigOperators.Ring.Finset
import Mathlib.Tactic.Ring
import Mathlib.Tactic.NormNum
import Mathlib.Tactic.Positivity

open scoped BigOperators

noncomputable section

namespace Cert.Spec

open Idealize.ShloMosaic Cert.Lib.Propagate

theorem eps_real : ∃ e : ℝ, 0 < e ∧ eps = (e : EReal) := by
  refine ⟨10995116 * (2 ^ 40)⁻¹, by positivity, ?_⟩
  unfold eps
  simp [Ideal.ofBits, Ideal.ieee]

section Column

variable (f : Fin 10000 → ℝ) (b : ℝ)

theorem mean_shift : (∑ i, (f i + b)) * (1 / 10000) = (∑ i, f i) * (1 / 10000) + b := by
  rw [Finset.sum_add_distrib, Finset.sum_const, Finset.card_univ, Fintype.card_fin, nsmul_eq_mul]
  push_cast
  ring

theorem var_shift (μ : ℝ) (hμ : μ = (∑ i, f i) * (1 / 10000) + b) :
    (∑ i, (f i + b - μ) * (f i + b - μ)) * (1 / 10000)
      = ((∑ i, f i * f i) + 2 * b * (∑ i, f i)) * (1 / 10000) + b * b - μ * μ := by
  have hexp : ∀ i, (f i + b - μ) * (f i + b - μ) = f i * f i + 2 * (b - μ) * f i + (b - μ) * (b - μ) := fun i => by ring
  simp only [hexp]
  rw [Finset.sum_add_distrib, Finset.sum_add_distrib, ← Finset.mul_sum, Finset.sum_const, Finset.card_univ,
    Fintype.card_fin, nsmul_eq_mul, hμ]
  push_cast
  ring

theorem var_nonneg (μ : ℝ) : 0 ≤ (∑ i, (f i - μ) * (f i - μ)) * (1 / 10000) :=
  mul_nonneg (Finset.sum_nonneg fun i _ => mul_self_nonneg _) (by norm_num)

end Column

def meanR (h : Fin 10000 → Fin 256 → ℝ) (j : Fin 256) : ℝ := (∑ i, h i j) * (1 / 10000)

def varR (h : Fin 10000 → Fin 256 → ℝ) (j : Fin 256) : ℝ :=
  (∑ i, (h i j - meanR h j) * (h i j - meanR h j)) * (1 / 10000)

theorem varR_nonneg (h : Fin 10000 → Fin 256 → ℝ) (j : Fin 256) : 0 ≤ varR h j :=
  var_nonneg (fun i => h i j) (meanR h j)

def bnR (e : ℝ) (h : Fin 10000 → Fin 256 → ℝ) (γ β : Fin 256 → ℝ) (i : Fin 10000) (j : Fin 256) : ℝ :=
  (h i j - meanR h j) * (1 / Real.sqrt (varR h j + e)) * γ j + β j

theorem mean_coe (h : Fin 10000 → Fin 256 → ℝ) (j : Fin 256) :
    mean (fun i j => (h i j : EReal)) j = ((meanR h j : ℝ) : EReal) := by
  unfold mean cN meanR
  rw [Ideal.div_coe (by norm_num), EReal.coe_mul, coe_finsetSum]

theorem var_coe (h : Fin 10000 → Fin 256 → ℝ) (j : Fin 256) :
    var (fun i j => (h i j : EReal)) j = ((varR h j : ℝ) : EReal) := by
  unfold var
  rw [mean_coe]
  unfold cN varR
  rw [Ideal.div_coe (by norm_num), EReal.coe_mul, coe_finsetSum]
  simp only [EReal.coe_mul, EReal.coe_sub]

theorem bnRef_coe {e : ℝ} (he : 0 < e) (hε : eps = (e : EReal)) (h : Fin 10000 → Fin 256 → ℝ) (γ β : Fin 256 → ℝ) :
    bnRef (fun i j => (h i j : EReal)) (fun j => (γ j : EReal)) (fun j => (β j : EReal))
      = fun i j => ((bnR e h γ β i j : ℝ) : EReal) := by
  funext i j
  have hpos : 0 < varR h j + e := add_pos_of_nonneg_of_pos (varR_nonneg h j) he
  unfold bnRef
  rw [mean_coe, var_coe, hε, ← EReal.coe_add, Ideal.sqrt_coe, if_neg (not_lt.mpr hpos.le),
    Ideal.div_coe (Real.sqrt_pos.mpr hpos).ne']
  unfold bnR
  simp only [EReal.coe_add, EReal.coe_mul, EReal.coe_sub]

def varKR (hr : Fin 10000 → Fin 256 → ℝ) (b : Fin 256 → ℝ) (j : Fin 256) : ℝ :=
  ((∑ i, hr i j * hr i j) + 2 * b j * (∑ i, hr i j)) * (1 / 10000) + b j * b j
    - ((∑ i, hr i j) * (1 / 10000) + b j) * ((∑ i, hr i j) * (1 / 10000) + b j)

theorem muK_coe (hr : Fin 10000 → Fin 256 → ℝ) (b : Fin 256 → ℝ) (j : Fin 256) :
    muK (fun i j => (hr i j : EReal)) (fun j => (b j : EReal)) j
      = (((∑ i, hr i j) * (1 / 10000) + b j : ℝ) : EReal) := by
  unfold muK cs cN
  rw [Ideal.div_coe (by norm_num), EReal.coe_add, EReal.coe_mul, coe_finsetSum]

theorem varK_coe (hr : Fin 10000 → Fin 256 → ℝ) (b : Fin 256 → ℝ) (j : Fin 256) :
    varK (fun i j => (hr i j : EReal)) (fun j => (b j : EReal)) j = ((varKR hr b j : ℝ) : EReal) := by
  unfold varK
  rw [muK_coe]
  unfold ex2K css cs cN varKR
  rw [Ideal.div_coe (by norm_num)]
  simp only [EReal.coe_add, EReal.coe_mul, EReal.coe_sub, coe_finsetSum]

theorem varKR_eq (hr : Fin 10000 → Fin 256 → ℝ) (b : Fin 256 → ℝ) (j : Fin 256) :
    varKR hr b j = varR (fun i j => hr i j + b j) j := by
  unfold varKR varR meanR
  rw [mean_shift (fun i => hr i j) (b j)]
  exact (var_shift (fun i => hr i j) (b j) _ rfl).symm

theorem bnKer_coe {e : ℝ} (he : 0 < e) (hε : eps = (e : EReal)) (hr : Fin 10000 → Fin 256 → ℝ) (b γ β : Fin 256 → ℝ) :
    bnKer (fun i j => (hr i j : EReal)) (fun j => (b j : EReal)) (fun j => (γ j : EReal)) (fun j => (β j : EReal))
      = fun i j => ((bnR e (fun i j => hr i j + b j) γ β i j : ℝ) : EReal) := by
  funext i j
  have hv : varKR hr b j = varR (fun i j => hr i j + b j) j := varKR_eq hr b j
  have hpos : 0 < varR (fun i j => hr i j + b j) j + e := add_pos_of_nonneg_of_pos (varR_nonneg _ j) he
  have hm : meanR (fun i j => hr i j + b j) j = (∑ i, hr i j) * (1 / 10000) + b j := mean_shift (fun i => hr i j) (b j)
  unfold bnKer shK scK
  rw [muK_coe, varK_coe, hε, ← EReal.coe_add, hv, Ideal.rsqrt_coe, if_neg (not_lt.mpr hpos.le), if_neg hpos.ne']
  unfold bnR
  rw [hm]
  simp only [← EReal.coe_add, ← EReal.coe_mul, ← EReal.coe_sub]
  congr 1
  ring

theorem real2_mm {n k m : ℕ} {A : Fin n → Fin k → EReal} {B : Fin k → Fin m → EReal} (hA : Real2 A) (hB : Real2 B) :
    Real2 (mm A B) :=
  fun i j => sum_real _ fun l => mul_real (hA i l) (hB l j)

theorem real2_raw {adj : Fin 10000 → Fin 10000 → EReal} {X : Fin 10000 → Fin 256 → EReal} {W : Fin 256 → Fin 256 → EReal}
    (hadj : Real2 adj) (hX : Real2 X) (hW : Real2 W) : Real2 (raw adj X W) :=
  real2_mm hadj (real2_mm hX hW)

theorem real2_eq_coe {n m : ℕ} {A : Fin n → Fin m → EReal} (hA : Real2 A) :
    ∃ a : Fin n → Fin m → ℝ, A = fun i j => (a i j : EReal) := by
  choose a ha using hA
  exact ⟨a, funext fun i => funext fun j => ha i j⟩

theorem real1_eq_coe {n : ℕ} {v : Fin n → EReal} (hv : Real1 v) : ∃ a : Fin n → ℝ, v = fun j => (a j : EReal) := by
  choose a ha using hv
  exact ⟨a, funext fun j => ha j⟩

theorem bnKer_eq_bnRef {hr : Fin 10000 → Fin 256 → EReal} {b γ β : Fin 256 → EReal}
    (hhr : Real2 hr) (hb : Real1 b) (hγ : Real1 γ) (hβ : Real1 β) :
    bnKer hr b γ β = bnRef (fun i j => hr i j + b j) γ β := by
  obtain ⟨e, he, hε⟩ := eps_real
  obtain ⟨r, rfl⟩ := real2_eq_coe hhr
  obtain ⟨b', rfl⟩ := real1_eq_coe hb
  obtain ⟨γ', rfl⟩ := real1_eq_coe hγ
  obtain ⟨β', rfl⟩ := real1_eq_coe hβ
  rw [bnKer_coe he hε]
  have hsum : (fun i j => ((r i j : ℝ) : EReal) + ((b' j : ℝ) : EReal)) = fun i j => ((r i j + b' j : ℝ) : EReal) :=
    funext fun i => funext fun j => (EReal.coe_add _ _).symm
  rw [hsum, bnRef_coe he hε]

theorem real2_bnKer {hr : Fin 10000 → Fin 256 → EReal} {b γ β : Fin 256 → EReal}
    (hhr : Real2 hr) (hb : Real1 b) (hγ : Real1 γ) (hβ : Real1 β) : Real2 (bnKer hr b γ β) := by
  obtain ⟨e, he, hε⟩ := eps_real
  obtain ⟨r, rfl⟩ := real2_eq_coe hhr
  obtain ⟨b', rfl⟩ := real1_eq_coe hb
  obtain ⟨γ', rfl⟩ := real1_eq_coe hγ
  obtain ⟨β', rfl⟩ := real1_eq_coe hβ
  rw [bnKer_coe he hε]
  exact fun i j => ⟨_, rfl⟩

theorem outKer_eq_outRef (X : Fin 10000 → Fin 256 → EReal) (adj : Fin 10000 → Fin 10000 → EReal)
    (W1 : Fin 256 → Fin 256 → EReal) (b1 g1 be1 : Fin 256 → EReal) (W2 : Fin 256 → Fin 256 → EReal) (b2 g2 be2 : Fin 256 → EReal)
    (hX : Real2 X) (hadj : Real2 adj) (hW1 : Real2 W1) (hb1 : Real1 b1) (hg1 : Real1 g1) (hbe1 : Real1 be1)
    (hW2 : Real2 W2) (hb2 : Real1 b2) (hg2 : Real1 g2) (hbe2 : Real1 be2) :
    outKer X adj W1 b1 g1 be1 W2 b2 g2 be2 = outRef X adj W1 b1 g1 be1 W2 b2 g2 be2 := by
  have h1 : h1Ker X adj W1 b1 g1 be1 = layerRef adj X W1 b1 g1 be1 :=
    bnKer_eq_bnRef (real2_raw hadj hX hW1) hb1 hg1 hbe1
  have hR : Real2 (h1Ker X adj W1 b1 g1 be1) := real2_bnKer (real2_raw hadj hX hW1) hb1 hg1 hbe1
  have h2 : bnKer (raw adj (h1Ker X adj W1 b1 g1 be1) W2) b2 g2 be2
      = layerRef adj (h1Ker X adj W1 b1 g1 be1) W2 b2 g2 be2 :=
    bnKer_eq_bnRef (real2_raw hadj hR hW2) hb2 hg2 hbe2
  funext i j
  show Ideal.tanh (bnKer (raw adj (h1Ker X adj W1 b1 g1 be1) W2) b2 g2 be2 i j)
      = Ideal.tanh (layerRef adj (layerRef adj X W1 b1 g1 be1) W2 b2 g2 be2 i j)
  rw [h2, h1]

end Cert.Spec

end
-- ==== Proof.Finite.lean ====
import proofs.«112434_g77017353552286_cont_9to1c4b_820_16_alg».proof.Defs
import proofs.«112434_g77017353552286_cont_9to1c4b_820_16_alg».proof.Proof.Gen.Pre_finite_inputs
import proofs.«112434_g77017353552286_cont_9to1c4b_820_16_alg».proof.Proof.Spec
import Idealize.ShloMosaic.Lib.ReduceAll
import Idealize.ShloMosaic.Lib.ValueIdx
import Mathlib.Data.EReal.Basic

namespace Cert.KernelIdeal.Hand

open Idealize.ShloMosaic

instance subsingleton_scalarIdx : Subsingleton Cert.Pre_finite_inputs.S_.Idx := ⟨fun a b => funext fun d => d.elim0⟩

theorem inf_word : Ideal.ofBits .f32 0x7F800000#32 = (⊤ : EReal) := by
  simp [Ideal.ofBits, Ideal.ieee]

theorem real_of_abs_lt (x : EReal)
    (h : Ideal.cmp .olt (max x (-x)) (Ideal.ofBits .f32 0x7F800000#32) = 1#1) : ∃ r : ℝ, x = (r : EReal) := by
  rw [inf_word] at h
  have hlt : max x (-x) < ⊤ := by
    by_contra hn
    have : Ideal.cmp .olt (max x (-x)) ⊤ = 0#1 := by
      simp only [Ideal.cmp, decide_eq_false hn]
      rfl
    rw [this] at h
    exact absurd h (by decide)
  induction x using EReal.rec with
  | bot => exact absurd hlt (by simp)
  | coe r => exact ⟨r, rfl⟩
  | top => exact absurd hlt (by simp)

theorem real_of_all {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x) (broadcastInDim s ![] bc (constant Cert.Pre_finite_inputs.S_ .f32 0x7F800000#32)))
        (constantI Cert.Pre_finite_inputs.S_ 1 1#1) hr hu ValueIdx.ix0 = 1#1)
    (i : s.Idx) : ∃ r : ℝ, x i = (r : EReal) :=
  real_of_abs_lt (x i) (Host.reduce_andi_all _ _ hr hu ValueIdx.ix0 e i)

theorem andi_ix0 (a b : IVec Cert.Pre_finite_inputs.S_ 1) :
    andi a b ValueIdx.ix0 = 1#1 ↔ a ValueIdx.ix0 = 1#1 ∧ b ValueIdx.ix0 = 1#1 :=
  IntOp.andi_eq_one

end Cert.KernelIdeal.Hand

open Idealize.ShloMosaic Idealize.ShloMosaic.TcCoe Idealize.SL.Sem Cert.KernelIdeal in

theorem Cert.KernelIdeal.Hand.real_of_pre [Cert.Pre_finite_inputs.Facts] (m : (ℓ : Loc nD τ sig) → Buf (Elt Ideal) ℓ)
    (h : Cert.Pre_KernelIdeal m) (c : Dev nD) :
    Cert.Spec.Real2 (Cert.Spec.m2 (m ((c.tc : Thread nD τ).loc main_arg0)))
    ∧ Cert.Spec.Real2 (Cert.Spec.m2 (m ((c.tc : Thread nD τ).loc main_arg1)))
    ∧ Cert.Spec.Real2 (Cert.Spec.m2 (m ((c.tc : Thread nD τ).loc main_arg2)))
    ∧ Cert.Spec.Real1 (Cert.Spec.m1 (m ((c.tc : Thread nD τ).loc main_arg3)))
    ∧ Cert.Spec.Real1 (Cert.Spec.m1 (m ((c.tc : Thread nD τ).loc main_arg4)))
    ∧ Cert.Spec.Real1 (Cert.Spec.m1 (m ((c.tc : Thread nD τ).loc main_arg5)))
    ∧ Cert.Spec.Real2 (Cert.Spec.m2 (m ((c.tc : Thread nD τ).loc main_arg6)))
    ∧ Cert.Spec.Real1 (Cert.Spec.m1 (m ((c.tc : Thread nD τ).loc main_arg7)))
    ∧ Cert.Spec.Real1 (Cert.Spec.m1 (m ((c.tc : Thread nD τ).loc main_arg8)))
    ∧ Cert.Spec.Real1 (Cert.Spec.m1 (m ((c.tc : Thread nD τ).loc main_arg9))) := by
  have h0 := congrFun (h c) ValueIdx.ix0
  dsimp only [Cert.Pre_finite_inputs.fn, Cert.Pre_finite_inputs.fn_part1, Cert.Pre_finite_inputs.fn_part2] at h0
  simp only [Cert.KernelIdeal.Hand.andi_ix0] at h0
  obtain ⟨⟨⟨⟨⟨⟨⟨⟨⟨e0, e1⟩, e2⟩, e3⟩, e4⟩, e5⟩, e6⟩, e7⟩, e8⟩, e9⟩ := h0
  exact ⟨fun i j => Cert.KernelIdeal.Hand.real_of_all _ _ _ _ e0 _,
    fun i j => Cert.KernelIdeal.Hand.real_of_all _ _ _ _ e1 _,
    fun i j => Cert.KernelIdeal.Hand.real_of_all _ _ _ _ e2 _,
    fun j => Cert.KernelIdeal.Hand.real_of_all _ _ _ _ e3 _,
    fun j => Cert.KernelIdeal.Hand.real_of_all _ _ _ _ e4 _,
    fun j => Cert.KernelIdeal.Hand.real_of_all _ _ _ _ e5 _,
    fun i j => Cert.KernelIdeal.Hand.real_of_all _ _ _ _ e6 _,
    fun j => Cert.KernelIdeal.Hand.real_of_all _ _ _ _ e7 _,
    fun j => Cert.KernelIdeal.Hand.real_of_all _ _ _ _ e8 _,
    fun j => Cert.KernelIdeal.Hand.real_of_all _ _ _ _ e9 _⟩
-- ==== Proof.lean ====
import proofs.«112434_g77017353552286_cont_9to1c4b_820_16_alg».proof.Defs
import proofs.«112434_g77017353552286_cont_9to1c4b_820_16_alg».proof.Proof.Gen.Kernel
import proofs.«112434_g77017353552286_cont_9to1c4b_820_16_alg».proof.Proof.Gen.KernelIdeal
import proofs.«112434_g77017353552286_cont_9to1c4b_820_16_alg».proof.Proof.Gen.ReferenceIdeal
import proofs.«112434_g77017353552286_cont_9to1c4b_820_16_alg».proof.Proof.Gen.Pre_finite_inputs
import proofs.«112434_g77017353552286_cont_9to1c4b_820_16_alg».proof.Proof.KValue
import proofs.«112434_g77017353552286_cont_9to1c4b_820_16_alg».proof.Proof.BRun
import proofs.«112434_g77017353552286_cont_9to1c4b_820_16_alg».proof.Proof.RefValue
import proofs.«112434_g77017353552286_cont_9to1c4b_820_16_alg».proof.Proof.Bridge
import proofs.«112434_g77017353552286_cont_9to1c4b_820_16_alg».proof.Proof.Finite

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) := fun m ρ _ =>
  (θ_run (Cert.Kernel.defs (F := Bits)) _ _).mono (fun _ h c => (h c).2) (Cert.Kernel.Hand.run_main (F := Bits) m ρ)

theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun _ h c => (h c).2) (Cert.KernelIdeal.Hand.run_main (F := Ideal) m ρ)

theorem frame_ri : Cert.frame_ReferenceIdeal (hReferenceIdeal := Cert.ReferenceIdeal.Gen.facts) (hPre_finite_inputs := Cert.Pre_finite_inputs.Gen.facts) := fun m ρ _ =>
  (θ_run (Cert.ReferenceIdeal.defs (F := Ideal)) _ _).mono (fun _ h c => (h c).2) (Cert.ReferenceIdeal.Hand.run_spec m ρ)

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨_, Cert.KernelIdeal.Hand.run_spec m ρ, ?_⟩
  refine (θ_run (Cert.ReferenceIdeal.defs (F := Ideal)) _ _).mono (fun _ h c => ⟨(h c).1.trans ?_, (h c).2⟩)
    (Cert.ReferenceIdeal.Hand.run_spec m' ρ')
  obtain ⟨r0, r1, r2, r3, r4, r5, r6, r7, r8, r9⟩ := Cert.KernelIdeal.Hand.real_of_pre m hpre c
  obtain ⟨e0, e1, e2, e3, e4, e5, e6, e7, e8, e9⟩ := hagree c
  rw [e0, e1, e2, e3, e4, e5, e6, e7, e8, e9]
  exact congrArg Cert.Spec.a2 (Cert.Spec.outKer_eq_outRef _ _ _ _ _ _ _ _ _ _ r0 r1 r2 r3 r4 r5 r6 r7 r8 r9).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
